-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v114_0)) (v1 : (c : Dev Cert.KernelIdeal.nD) → Buf (Elt Ideal) ((c.tc : Thread Cert.KernelIdeal.nD Cert.KernelIdeal.τ).loc Cert.KernelIdeal.main_v115_0)) (v2 : (c : Dev Cert.KernelIdeal.nD) → Buf (Elt Ideal) ((c.tc : Thread Cert.KernelIdeal.nD Cert.KernelIdeal.τ).loc Cert.KernelIdeal.main_v128)) (v3 : (c : Dev Cert.KernelIdeal.nD) → Buf (Elt Ideal) ((c.tc : Thread Cert.KernelIdeal.nD Cert.KernelIdeal.τ).loc Cert.KernelIdeal.main_v129)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v64)) (v6 : (c : Dev Cert.KernelIdeal.nD) → Buf (Elt Ideal) ((c.tc : Thread Cert.KernelIdeal.nD Cert.KernelIdeal.τ).loc Cert.KernelIdeal.main_v25)) (v7 : (c : Dev Cert.KernelIdeal.nD) → Buf (Elt Ideal) ((c.tc : Thread Cert.KernelIdeal.nD Cert.KernelIdeal.τ).loc Cert.KernelIdeal.main_v77)) (v8 : (c : Dev Cert.KernelIdeal.nD) → Buf (Elt Ideal) ((c.tc : Thread Cert.KernelIdeal.nD Cert.KernelIdeal.τ).loc Cert.KernelIdeal.main_v38)) (v9 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114_0) = v0 c
          ∧ r.2.mem ((c.tc : Thread Cert.KernelIdeal.nD Cert.KernelIdeal.τ).loc Cert.KernelIdeal.main_v115_0) = v1 c
          ∧ r.2.mem ((c.tc : Thread Cert.KernelIdeal.nD Cert.KernelIdeal.τ).loc Cert.KernelIdeal.main_v128) = v2 c
          ∧ r.2.mem ((c.tc : Thread Cert.KernelIdeal.nD Cert.KernelIdeal.τ).loc Cert.KernelIdeal.main_v129) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v64) = v5 c
          ∧ r.2.mem ((c.tc : Thread Cert.KernelIdeal.nD Cert.KernelIdeal.τ).loc Cert.KernelIdeal.main_v25) = v6 c
          ∧ r.2.mem ((c.tc : Thread Cert.KernelIdeal.nD Cert.KernelIdeal.τ).loc Cert.KernelIdeal.main_v77) = v7 c
          ∧ r.2.mem ((c.tc : Thread Cert.KernelIdeal.nD Cert.KernelIdeal.τ).loc Cert.KernelIdeal.main_v38) = v8 c
          ∧ r.2.mem ((c.tc : Thread Cert.KernelIdeal.nD Cert.KernelIdeal.τ).loc Cert.KernelIdeal.main_v90) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_v25) = v6 c
          ∧ r.2.mem ((c.tc : Thread Cert.ReferenceIdeal.nD Cert.ReferenceIdeal.τ).loc Cert.ReferenceIdeal.main_v77) = v7 c
          ∧ r.2.mem ((c.tc : Thread Cert.ReferenceIdeal.nD Cert.ReferenceIdeal.τ).loc Cert.ReferenceIdeal.main_v38) = v8 c
          ∧ r.2.mem ((c.tc : Thread Cert.ReferenceIdeal.nD Cert.ReferenceIdeal.τ).loc Cert.ReferenceIdeal.main_v90) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S80000x64 : S_.BroadcastsInDim S80000x64 (![] : Fin 0 → Fin S80000x64.rank)
  reducesTo_S80000x64_S_d0_1 : S80000x64.ReducesTo [0, 1] S_
  bcast_S_S64x64 : S_.BroadcastsInDim S64x64 (![] : Fin 0 → Fin S64x64.rank)
  reducesTo_S64x64_S_d0_1 : S64x64.ReducesTo [0, 1] S_
  bcast_S_S2000000 : S_.BroadcastsInDim S2000000 (![] : Fin 0 → Fin S2000000.rank)
  reducesTo_S2000000_S_d0 : S2000000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S2000000 .f32) (main_arg18 : FVec F S2000000 .f32) (main_arg21 : FVec F S2000000 .f32) (main_v48 : IVec S_ 1) (main_v49 : FVec F S2000000 .f32) (main_v50 : FVec F S2000000 .f32) : IVec S_ 1 :=
  let main_v51 : IVec S2000000 1 := cmpf .olt main_v49 main_v50
  let main_c_19 : IVec S_ 1 := constantI S_ 1 1#1
  let main_v52 : IVec S_ 1 := (fun x v => Host.reduce IntOp.andi x v reducesTo_S2000000_S_d0 h_S_) main_v51 main_c_19
  let main_v53 : IVec S_ 1 := andi main_v48 main_v52
  let main_v54 : FVec F S2000000 .f32 := Host.absf main_arg15
  let main_cst_20 : FVec F S_ .f32 := constant S_ .f32 0x7F800000#32
  let main_v55 : FVec F S2000000 .f32 := broadcastInDim S2000000 ![] bcast_S_S2000000 main_cst_20
  let main_v56 : IVec S2000000 1 := cmpf .olt main_v54 main_v55
  let main_c_21 : IVec S_ 1 := constantI S_ 1 1#1
  let main_v57 : IVec S_ 1 := (fun x v => Host.reduce IntOp.andi x v reducesTo_S2000000_S_d0 h_S_) main_v56 main_c_21
  let main_v58 : IVec S_ 1 := andi main_v53 main_v57
  let main_v59 : FVec F S2000000 .f32 := Host.absf main_arg18
  let main_cst_22 : FVec F S_ .f32 := constant S_ .f32 0x7F800000#32
  let main_v60 : FVec F S2000000 .f32 := broadcastInDim S2000000 ![] bcast_S_S2000000 main_cst_22
  let main_v61 : IVec S2000000 1 := cmpf .olt main_v59 main_v60
  let main_c_23 : IVec S_ 1 := constantI S_ 1 1#1
  let main_v62 : IVec S_ 1 := (fun x v => Host.reduce IntOp.andi x v reducesTo_S2000000_S_d0 h_S_) main_v61 main_c_23
  let main_v63 : IVec S_ 1 := andi main_v58 main_v62
  let main_v64 : FVec F S2000000 .f32 := Host.absf main_arg21
  let main_cst_24 : FVec F S_ .f32 := constant S_ .f32 0x7F800000#32
  let main_v65 : FVec F S2000000 .f32 := broadcastInDim S2000000 ![] bcast_S_S2000000 main_cst_24
  let main_v66 : IVec S2000000 1 := cmpf .olt main_v64 main_v65
  let main_c_25 : IVec S_ 1 := constantI S_ 1 1#1
  let main_v67 : IVec S_ 1 := (fun x v => Host.reduce IntOp.andi x v reducesTo_S2000000_S_d0 h_S_) main_v66 main_c_25
  fn_part4 (F := F) main_v63 main_v67

def fn_part2 {F : FTy → Type} [FloatOps F] (main_arg7 : FVec F S80000x64 .f32) (main_arg8 : FVec F S64x64 .f32) (main_arg9 : FVec F S64x64 .f32) (main_arg12 : FVec F S2000000 .f32) (main_arg15 : FVec F S2000000 .f32) (main_arg18 : FVec F S2000000 .f32) (main_arg21 : FVec F S2000000 .f32) (main_v33 : IVec S_ 1) : IVec S_ 1 :=
  let main_v34 : FVec F S80000x64 .f32 := Host.absf main_arg7
  let main_cst_12 : FVec F S_ .f32 := constant S_ .f32 0x7F800000#32
  let main_v35 : FVec F S80000x64 .f32 := broadcastInDim S80000x64 ![] bcast_S_S80000x64 main_cst_12
  let main_v36 : IVec S80000x64 1 := cmpf .olt main_v34 main_v35
  let main_c_13 : IVec S_ 1 := constantI S_ 1 1#1
  let main_v37 : IVec S_ 1 := (fun x v => Host.reduce IntOp.andi x v reducesTo_S80000x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S2000000 .f32 := Host.absf main_arg12
  let main_cst_18 : FVec F S_ .f32 := constant S_ .f32 0x7F800000#32
  let main_v50 : FVec F S2000000 .f32 := broadcastInDim S2000000 ![] bcast_S_S2000000 main_cst_18
  fn_part3 (F := F) main_arg15 main_arg18 main_arg21 main_v48 main_v49 main_v50

def fn_part1 {F : FTy → Type} [FloatOps F] (main_arg4 : FVec F S150000x64 .f32) (main_arg5 : FVec F S80000x64 .f32) (main_arg6 : FVec F S150000x64 .f32) (main_arg7 : FVec F S80000x64 .f32) (main_arg8 : FVec F S64x64 .f32) (main_arg9 : FVec F S64x64 .f32) (main_arg12 : FVec F S2000000 .f32) (main_arg15 : FVec F S2000000 .f32) (main_arg18 : FVec F S2000000 .f32) (main_arg21 : FVec F S2000000 .f32) (main_v13 : IVec S_ 1) (main_v16 : IVec S80000x64 1) : IVec S_ 1 :=
  let main_c_5 : IVec S_ 1 := constantI S_ 1 1#1
  let main_v17 : IVec S_ 1 := (fun x v => Host.reduce IntOp.andi x v reducesTo_S80000x64_S_d0_1 h_S_) main_v16 main_c_5
  let main_v18 : IVec S_ 1 := andi main_v13 main_v17
  let main_v19 : FVec F S150000x64 .f32 := Host.absf main_arg4
  let main_cst_6 : FVec F S_ .f32 := constant S_ .f32 0x7F800000#32
  let main_v20 : FVec F S150000x64 .f32 := broadcastInDim S150000x64 ![] bcast_S_S150000x64 main_cst_6
  let main_v21 : IVec S150000x64 1 := cmpf .olt main_v19 main_v20
  let main_c_7 : IVec S_ 1 := constantI S_ 1 1#1
  let main_v22 : IVec S_ 1 := (fun x v => Host.reduce IntOp.andi x v reducesTo_S150000x64_S_d0_1 h_S_) main_v21 main_c_7
  let main_v23 : IVec S_ 1 := andi main_v18 main_v22
  let main_v24 : FVec F S80000x64 .f32 := Host.absf main_arg5
  let main_cst_8 : FVec F S_ .f32 := constant S_ .f32 0x7F800000#32
  let main_v25 : FVec F S80000x64 .f32 := broadcastInDim S80000x64 ![] bcast_S_S80000x64 main_cst_8
  let main_v26 : IVec S80000x64 1 := cmpf .olt main_v24 main_v25
  let main_c_9 : IVec S_ 1 := constantI S_ 1 1#1
  let main_v27 : IVec S_ 1 := (fun x v => Host.reduce IntOp.andi x v reducesTo_S80000x64_S_d0_1 h_S_) main_v26 main_c_9
  let main_v28 : IVec S_ 1 := andi main_v23 main_v27
  let main_v29 : FVec F S150000x64 .f32 := Host.absf main_arg6
  let main_cst_10 : FVec F S_ .f32 := constant S_ .f32 0x7F800000#32
  let main_v30 : FVec F S150000x64 .f32 := broadcastInDim S150000x64 ![] bcast_S_S150000x64 main_cst_10
  let main_v31 : IVec S150000x64 1 := cmpf .olt main_v29 main_v30
  let main_c_11 : IVec S_ 1 := constantI S_ 1 1#1
  let main_v32 : IVec S_ 1 := (fun x v => Host.reduce IntOp.andi x v reducesTo_S150000x64_S_d0_1 h_S_) main_v31 main_c_11
  let main_v33 : IVec S_ 1 := andi main_v28 main_v32
  fn_part2 (F := F) main_arg7 main_arg8 main_arg9 main_arg12 main_arg15 main_arg18 main_arg21 main_v33

def fn {F : FTy → Type} [FloatOps F] (main_arg0 : FVec F S150000x64 .f32) (main_arg1 : FVec F S80000x64 .f32) (main_arg2 : FVec F S150000x64 .f32) (main_arg3 : FVec F S80000x64 .f32) (main_arg4 : FVec F S150000x64 .f32) (main_arg5 : FVec F S80000x64 .f32) (main_arg6 : FVec F S150000x64 .f32) (main_arg7 : FVec F S80000x64 .f32) (main_arg8 : FVec F S64x64 .f32) (main_arg9 : FVec F S64x64 .f32) (main_arg10 : IVec S2000000 32) (main_arg11 : IVec S2000000 32) (main_arg12 : FVec F S2000000 .f32) (main_arg13 : IVec S2000000 32) (main_arg14 : IVec S2000000 32) (main_arg15 : FVec F S2000000 .f32) (main_arg16 : IVec S2000000 32) (main_arg17 : IVec S2000000 32) (main_arg18 : FVec F S2000000 .f32) (main_arg19 : IVec S2000000 32) (main_arg20 : IVec S2000000 32) (main_arg21 : FVec F S2000000 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S80000x64 .f32 := Host.absf main_arg1
  let main_cst_0 : FVec F S_ .f32 := constant S_ .f32 0x7F800000#32
  let main_v5 : FVec F S80000x64 .f32 := broadcastInDim S80000x64 ![] bcast_S_S80000x64 main_cst_0
  let main_v6 : IVec S80000x64 1 := cmpf .olt main_v4 main_v5
  let main_c_1 : IVec S_ 1 := constantI S_ 1 1#1
  let main_v7 : IVec S_ 1 := (fun x v => Host.reduce IntOp.andi x v reducesTo_S80000x64_S_d0_1 h_S_) main_v6 main_c_1
  let main_v8 : IVec S_ 1 := andi main_v3 main_v7
  let main_v9 : FVec F S150000x64 .f32 := Host.absf main_arg2
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S80000x64 .f32 := Host.absf main_arg3
  let main_cst_4 : FVec F S_ .f32 := constant S_ .f32 0x7F800000#32
  let main_v15 : FVec F S80000x64 .f32 := broadcastInDim S80000x64 ![] bcast_S_S80000x64 main_cst_4
  let main_v16 : IVec S80000x64 1 := cmpf .olt main_v14 main_v15
  fn_part1 (F := F) main_arg4 main_arg5 main_arg6 main_arg7 main_arg8 main_arg9 main_arg12 main_arg15 main_arg18 main_arg21 main_v13 main_v16
-- ==== Kernel.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S2000000x1 : Shape := ⟨2, ![2000000, 1]⟩
abbrev S_ : Shape := ⟨0, ![]⟩
abbrev S2000000x64 : Shape := ⟨2, ![2000000, 64]⟩
abbrev S1x150000x64 : Shape := ⟨3, ![1, 150000, 64]⟩
abbrev S4x150000x64 : Shape := ⟨3, ![4, 150000, 64]⟩
abbrev S1x80000x64 : Shape := ⟨3, ![1, 80000, 64]⟩
abbrev S4x80000x64 : Shape := ⟨3, ![4, 80000, 64]⟩
abbrev S4x64 : Shape := ⟨2, ![4, 64]⟩
abbrev S4x5000x64 : Shape := ⟨3, ![4, 5000, 64]⟩
abbrev S5000x64 : Shape := ⟨2, ![5000, 64]⟩
abbrev S4x2000x64 : Shape := ⟨3, ![4, 2000, 64]⟩
abbrev S2000x64 : Shape := ⟨2, ![2000, 64]⟩
abbrev S4x1x64 : Shape := ⟨3, ![4, 1, 64]⟩

abbrev nBuf : Space → Nat
  | .hbm => 182
  | .vmem => 22
  | .smem => 0
  | _ => 0

abbrev hbmTy0_0 (i : Nat) : BufTy := match i % 128 with
  | 0 => ⟨S150000x64, .f32⟩
  | 1 => ⟨S80000x64, .f32⟩
  | 2 => ⟨S150000x64, .f32⟩
  | 3 => ⟨S80000x64, .f32⟩
  | 4 => ⟨S150000x64, .f32⟩
  | 5 => ⟨S80000x64, .f32⟩
  | 6 => ⟨S150000x64, .f32⟩
  | 7 => ⟨S80000x64, .f32⟩
  | 8 => ⟨S64x64, .f32⟩
  | 9 => ⟨S64x64, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S2000000, .i32⟩
  | 17 => ⟨S2000000, .i32⟩
  | 18 => ⟨S2000000, .f32⟩
  | 19 => ⟨S2000000, .i32⟩
  | 20 => ⟨S2000000, .i32⟩
  | 21 => ⟨S2000000, .f32⟩
  | 22 => ⟨S2000000x1, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S2000000x64, .f32⟩
  | 34 => ⟨S_, .f32⟩
  | 35 => ⟨S150000x64, .f32⟩
  | 36 => ⟨S2000000x1, .i32⟩
  | 37 => ⟨S150000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S150000x64, .f32⟩
  | 52 => ⟨S2000000x1, .i32⟩
  | 53 => ⟨S150000x64, .f32⟩
  | 54 => ⟨S2000000x1, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S150000x64, .f32⟩
  | 68 => ⟨S2000000x1, .i32⟩
  | 69 => ⟨S150000x64, .f32⟩
  | 70 => ⟨S2000000x1, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S2000000x64, .f32⟩
  | 82 => ⟨S_, .f32⟩
  | 83 => ⟨S150000x64, .f32⟩
  | 84 => ⟨S2000000x1, .i32⟩
  | 85 => ⟨S150000x64, .f32⟩
  | 86 => ⟨S2000000x1, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S2000000x64, .f32⟩
  | 97 => ⟨S2000000x64, .f32⟩
  | 98 => ⟨S_, .f32⟩
  | 99 => ⟨S80000x64, .f32⟩
  | 100 => ⟨S2000000x1, .i32⟩
  | 101 => ⟨S80000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S80000x64, .f32⟩
  | 116 => ⟨S2000000x1, .i32⟩
  | 117 => ⟨S80000x64, .f32⟩
  | 118 => ⟨S2000000x1, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S150000x64, .f32⟩

abbrev hbmTy0_1 (i : Nat) : BufTy := match i % 128 with
  | 0 => ⟨S2000000x64, .f32⟩
  | 1 => ⟨S2000000x64, .f32⟩
  | 2 => ⟨S_, .f32⟩
  | 3 => ⟨S80000x64, .f32⟩
  | 4 => ⟨S2000000x1, .i32⟩
  | 5 => ⟨S80000x64, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x64, .f32⟩
  | 17 => ⟨S2000000x64, .f32⟩
  | 18 => ⟨S_, .f32⟩
  | 19 => ⟨S80000x64, .f32⟩
  | 20 => ⟨S2000000x1, .i32⟩
  | 21 => ⟨S80000x64, .f32⟩
  | 22 => ⟨S1x150000x64, .f32⟩
  | 23 => ⟨S1x150000x64, .f32⟩
  | 24 => ⟨S1x150000x64, .f32⟩
  | 25 => ⟨S1x150000x64, .f32⟩
  | 26 => ⟨S4x150000x64, .f32⟩
  | 27 => ⟨S1x80000x64, .f32⟩
  | 28 => ⟨S1x80000x64, .f32⟩
  | 29 => ⟨S1x80000x64, .f32⟩
  | 30 => ⟨S1x80000x64, .f32⟩
  | 31 => ⟨S4x80000x64, .f32⟩
  | 32 => ⟨S150000x64, .f32⟩
  | 33 => ⟨S4x64, .f32⟩
  | 34 => ⟨S80000x64, .f32⟩
  | 35 => ⟨S4x64, .f32⟩
  | 36 => ⟨S4x64, .f32⟩
  | 37 => ⟨S_, .f32⟩
  | 38 => ⟨S4x64, .f32⟩
  | 39 => ⟨S4x64, .f32⟩
  | 40 => ⟨S_, .f32⟩
  | 41 => ⟨S4x64, .f32⟩
  | 42 => ⟨S4x64, .f32⟩
  | 43 => ⟨S4x1x64, .f32⟩
  | 44 => ⟨S4x64, .f32⟩
  | 45 => ⟨S_, .f32⟩
  | 46 => ⟨S4x64, .f32⟩
  | 47 => ⟨S4x64, .f32⟩
  | 48 => ⟨S_, .f32⟩
  | 49 => ⟨S4x64, .f32⟩
  | 50 => ⟨S4x64, .f32⟩
  | 51 => ⟨S4x1x64, .f32⟩
  | 52 => ⟨S4x150000x64, .f32⟩
  | 53 => ⟨S4x80000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S4x5000x64, .f32⟩
  | .local _ .vmem, ⟨1, _⟩ => ⟨S4x5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S4x64, .f32⟩
  | .local _ .vmem, ⟨6, _⟩ => ⟨S4x2000x64, .f32⟩
  | .local _ .vmem, ⟨7, _⟩ => ⟨S4x2000x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S4x64, .f32⟩
  | .local _ .vmem, ⟨12, _⟩ => ⟨S4x5000x64, .f32⟩
  | .local _ .vmem, ⟨13, _⟩ => ⟨S4x5000x64, .f32⟩
  | .local _ .vmem, ⟨14, _⟩ => ⟨S4x1x64, .f32⟩
  | .local _ .vmem, ⟨15, _⟩ => ⟨S4x5000x64, .f32⟩
  | .local _ .vmem, ⟨16, _⟩ => ⟨S4x5000x64, .f32⟩
  | .local _ .vmem, ⟨17, _⟩ => ⟨S4x2000x64, .f32⟩
  | .local _ .vmem, ⟨18, _⟩ => ⟨S4x2000x64, .f32⟩
  | .local _ .vmem, ⟨19, _⟩ => ⟨S4x1x64, .f32⟩
  | .local _ .vmem, ⟨20, _⟩ => ⟨S4x2000x64, .f32⟩
  | .local _ .vmem, ⟨21, _⟩ => ⟨S4x2000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114_0 : Ref sig .tc := ⟨.hbm, 160, rfl⟩
abbrev main_v114_1 : Ref sig .tc := ⟨.hbm, 161, rfl⟩
abbrev main_v115_0 : Ref sig .tc := ⟨.hbm, 162, rfl⟩
abbrev main_v115_1 : Ref sig .tc := ⟨.hbm, 163, rfl⟩
abbrev main_v116 : Ref sig .tc := ⟨.hbm, 164, rfl⟩
abbrev main_cst_22 : Ref sig .tc := ⟨.hbm, 165, rfl⟩
abbrev main_v117 : Ref sig .tc := ⟨.hbm, 166, rfl⟩
abbrev main_v118 : Ref sig .tc := ⟨.hbm, 167, rfl⟩
abbrev main_cst_23 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_24 : Ref sig .tc := ⟨.hbm, 173, rfl⟩
abbrev main_v123 : Ref sig .tc := ⟨.hbm, 174, rfl⟩
abbrev main_v124 : Ref sig .tc := ⟨.hbm, 175, rfl⟩
abbrev main_cst_25 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![30], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![30], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4x2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S80000x64 : S_.BroadcastsInDim S80000x64 (![] : Fin 0 → Fin S80000x64.rank)
  bcast_S150000x64_S1x150000x64_1_2 : S150000x64.BroadcastsInDim S1x150000x64 (![1, 2] : Fin 2 → Fin S1x150000x64.rank)
  concatenates_S1x150000x64_S1x150000x64_S1x150000x64_S1x150000x64_S4x150000x64_d0 : Shape.Concatenates [S1x150000x64, S1x150000x64, S1x150000x64, S1x150000x64] S4x150000x64 0
  bcast_S80000x64_S1x80000x64_1_2 : S80000x64.BroadcastsInDim S1x80000x64 (![1, 2] : Fin 2 → Fin S1x80000x64.rank)
  concatenates_S1x80000x64_S1x80000x64_S1x80000x64_S1x80000x64_S4x80000x64_d0 : Shape.Concatenates [S1x80000x64, S1x80000x64, S1x80000x64, S1x80000x64] S4x80000x64 0
  inb_S4x64_S4x64_0_0 : ∀ a, (![0, 0] : Fin 2 → Nat) a + S4x64.size a ≤ S4x64.size a
  h_S4x64 : 0 < S4x64.numel
  inb_S4x5000x64_S4x5000x64_0_0_0 : ∀ a, (![0, 0, 0] : Fin 3 → Nat) a + S4x5000x64.size a ≤ S4x5000x64.size a
  h_S4x5000x64 : 0 < S4x5000x64.numel
  shapeCasts_S4x5000x64_S4x5000x64 : S4x5000x64.ShapeCasts S4x5000x64
  reduces_S4x5000x64_S5000x64 : S4x5000x64.Reduces [0] S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  shapeCasts_S4x64_S4x64 : S4x64.ShapeCasts S4x64
  reduces_S4x5000x64_S4x64 : S4x5000x64.Reduces [1] S4x64
  inb_S4x2000x64_S4x2000x64_0_0_0 : ∀ a, (![0, 0, 0] : Fin 3 → Nat) a + S4x2000x64.size a ≤ S4x2000x64.size a
  h_S4x2000x64 : 0 < S4x2000x64.numel
  shapeCasts_S4x2000x64_S4x2000x64 : S4x2000x64.ShapeCasts S4x2000x64
  reduces_S4x2000x64_S2000x64 : S4x2000x64.Reduces [0] S2000x64
  inb_S2000x64_S2000x64_0_0 : ∀ a, (![0, 0] : Fin 2 → Nat) a + S2000x64.size a ≤ S2000x64.size a
  h_S2000x64 : 0 < S2000x64.numel
  reduces_S4x2000x64_S4x64 : S4x2000x64.Reduces [1] S4x64
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  inb_S4x1x64_S4x1x64_0_0_0 : ∀ a, (![0, 0, 0] : Fin 3 → Nat) a + S4x1x64.size a ≤ S4x1x64.size a
  h_S4x1x64 : 0 < S4x1x64.numel
  shapeCasts_S4x1x64_S4x1x64 : S4x1x64.ShapeCasts S4x1x64
  broadcasts_S4x1x64_S4x5000x64 : S4x1x64.Broadcasts S4x5000x64
  broadcasts_S4x1x64_S4x2000x64 : S4x1x64.Broadcasts S4x2000x64
  gather_S80000x64_S2000000x1_S2000000x64_1_0_n_n_0_1_164_wf : GatherDims.WF S80000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S2000000x1_S2000000x64_1_0_n_n_0_1_164_wf : GatherDims.WF S150000x64 S2000000x1 S2000000x64 [1] [0] [] [0] [] 1 ![1, 64]
  scatter_S80000x64_S2000000x1_S2000000x64_1_0_0_1_wf : ScatterDims.WF S80000x64 S2000000x1 S2000000x64 [1] [0] [0] 1
  dot_S5000x64_S64x64_S5000x64_1_0_0_1_n_n_wf : DotDims.WF S5000x64 S64x64 S5000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x64.size a ≤ S4x150000x64.size a
  hwx0_0 : ∀ i : grid0.Coords, EltTy.bits .f32 = 32 ∨ (Rect.block (s := S4x150000x64) S4x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x64.size a ≤ S4x80000x64.size a
  hwx1_0 : ∀ i : grid1.Coords, EltTy.bits .f32 = 32 ∨ (Rect.block (s := S4x80000x64) S4x2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S80000x64.size a
  hwx1_2 : ∀ i : grid1.Coords, EltTy.bits .f32 = 32 ∨ (Rect.block (s := S80000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x5000x64.size a ≤ S4x150000x64.size a
  hwx2_0 : ∀ i : grid2.Coords, EltTy.bits .f32 = 32 ∨ (Rect.block (s := S4x150000x64) S4x5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x1x64.size a ≤ S4x1x64.size a
  hwx2_1 : ∀ i : grid2.Coords, EltTy.bits .f32 = 32 ∨ (Rect.block (s := S4x1x64) S4x1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x5000x64.size a ≤ S4x150000x64.size a
  hwx2_2 : ∀ i : grid2.Coords, EltTy.bits .f32 = 32 ∨ (Rect.block (s := S4x150000x64) S4x5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x2000x64.size a ≤ S4x80000x64.size a
  hwx3_0 : ∀ i : grid3.Coords, EltTy.bits .f32 = 32 ∨ (Rect.block (s := S4x80000x64) S4x2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x1x64.size a ≤ S4x1x64.size a
  hwx3_1 : ∀ i : grid3.Coords, EltTy.bits .f32 = 32 ∨ (Rect.block (s := S4x1x64) S4x1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x2000x64.size a ≤ S4x80000x64.size a
  hwx3_2 : ∀ i : grid3.Coords, EltTy.bits .f32 = 32 ∨ (Rect.block (s := S4x80000x64) S4x2000x64.size (cc3_transform_2 i) (hinb3_2 i)).WholeWords (EltTy.packing .f32)

variable [Facts₀]

def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v108) S4x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v114_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v114_1) S4x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v113) S4x2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v115_0) S2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v115_1) S4x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v108) S4x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v121) S4x1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v128) S4x5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v113) S4x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v127) S4x1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v129) S4x2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S2000000x1 : Shape := ⟨2, ![2000000, 1]⟩
abbrev S_ : Shape := ⟨0, ![]⟩
abbrev S2000000x64 : Shape := ⟨2, ![2000000, 64]⟩
abbrev S1x150000x64 : Shape := ⟨3, ![1, 150000, 64]⟩
abbrev S4x150000x64 : Shape := ⟨3, ![4, 150000, 64]⟩
abbrev S1x80000x64 : Shape := ⟨3, ![1, 80000, 64]⟩
abbrev S4x80000x64 : Shape := ⟨3, ![4, 80000, 64]⟩
abbrev S4x64 : Shape := ⟨2, ![4, 64]⟩
abbrev S4x1x64 : Shape := ⟨3, ![4, 1, 64]⟩

abbrev nBuf : Space → Nat
  | .hbm => 208
  | .vmem => 0
  | .smem => 0
  | _ => 0

abbrev hbmTy0_0 (i : Nat) : BufTy := match i % 128 with
  | 0 => ⟨S150000x64, .f32⟩
  | 1 => ⟨S80000x64, .f32⟩
  | 2 => ⟨S150000x64, .f32⟩
  | 3 => ⟨S80000x64, .f32⟩
  | 4 => ⟨S150000x64, .f32⟩
  | 5 => ⟨S80000x64, .f32⟩
  | 6 => ⟨S150000x64, .f32⟩
  | 7 => ⟨S80000x64, .f32⟩
  | 8 => ⟨S64x64, .f32⟩
  | 9 => ⟨S64x64, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S2000000, .i32⟩
  | 17 => ⟨S2000000, .i32⟩
  | 18 => ⟨S2000000, .f32⟩
  | 19 => ⟨S2000000, .i32⟩
  | 20 => ⟨S2000000, .i32⟩
  | 21 => ⟨S2000000, .f32⟩
  | 22 => ⟨S2000000x1, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S2000000x64, .f32⟩
  | 34 => ⟨S_, .f32⟩
  | 35 => ⟨S150000x64, .f32⟩
  | 36 => ⟨S2000000x1, .i32⟩
  | 37 => ⟨S150000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S150000x64, .f32⟩
  | 52 => ⟨S2000000x1, .i32⟩
  | 53 => ⟨S150000x64, .f32⟩
  | 54 => ⟨S2000000x1, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S150000x64, .f32⟩
  | 68 => ⟨S2000000x1, .i32⟩
  | 69 => ⟨S150000x64, .f32⟩
  | 70 => ⟨S2000000x1, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S2000000x64, .f32⟩
  | 82 => ⟨S_, .f32⟩
  | 83 => ⟨S150000x64, .f32⟩
  | 84 => ⟨S2000000x1, .i32⟩
  | 85 => ⟨S150000x64, .f32⟩
  | 86 => ⟨S2000000x1, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S2000000x64, .f32⟩
  | 97 => ⟨S2000000x64, .f32⟩
  | 98 => ⟨S_, .f32⟩
  | 99 => ⟨S80000x64, .f32⟩
  | 100 => ⟨S2000000x1, .i32⟩
  | 101 => ⟨S80000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S80000x64, .f32⟩
  | 116 => ⟨S2000000x1, .i32⟩
  | 117 => ⟨S80000x64, .f32⟩
  | 118 => ⟨S2000000x1, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S150000x64, .f32⟩

abbrev hbmTy0_1 (i : Nat) : BufTy := match i % 128 with
  | 0 => ⟨S2000000x64, .f32⟩
  | 1 => ⟨S2000000x64, .f32⟩
  | 2 => ⟨S_, .f32⟩
  | 3 => ⟨S80000x64, .f32⟩
  | 4 => ⟨S2000000x1, .i32⟩
  | 5 => ⟨S80000x64, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x64, .f32⟩
  | 17 => ⟨S2000000x64, .f32⟩
  | 18 => ⟨S_, .f32⟩
  | 19 => ⟨S80000x64, .f32⟩
  | 20 => ⟨S2000000x1, .i32⟩
  | 21 => ⟨S80000x64, .f32⟩
  | 22 => ⟨S1x150000x64, .f32⟩
  | 23 => ⟨S1x150000x64, .f32⟩
  | 24 => ⟨S1x150000x64, .f32⟩
  | 25 => ⟨S1x150000x64, .f32⟩
  | 26 => ⟨S4x150000x64, .f32⟩
  | 27 => ⟨S1x80000x64, .f32⟩
  | 28 => ⟨S1x80000x64, .f32⟩
  | 29 => ⟨S1x80000x64, .f32⟩
  | 30 => ⟨S1x80000x64, .f32⟩
  | 31 => ⟨S4x80000x64, .f32⟩
  | 32 => ⟨S_, .f32⟩
  | 33 => ⟨S150000x64, .f32⟩
  | 34 => ⟨S_, .f32⟩
  | 35 => ⟨S150000x64, .f32⟩
  | 36 => ⟨S150000x64, .f32⟩
  | 37 => ⟨S150000x64, .f32⟩
  | 38 => ⟨S150000x64, .f32⟩
  | 39 => ⟨S150000x64, .f32⟩
  | 40 => ⟨S_, .f32⟩
  | 41 => ⟨S150000x64, .f32⟩
  | 42 => ⟨S150000x64, .f32⟩
  | 43 => ⟨S_, .f32⟩
  | 44 => ⟨S150000x64, .f32⟩
  | 45 => ⟨S150000x64, .f32⟩
  | 46 => ⟨S_, .f32⟩
  | 47 => ⟨S80000x64, .f32⟩
  | 48 => ⟨S_, .f32⟩
  | 49 => ⟨S80000x64, .f32⟩
  | 50 => ⟨S80000x64, .f32⟩
  | 51 => ⟨S80000x64, .f32⟩
  | 52 => ⟨S80000x64, .f32⟩
  | 53 => ⟨S80000x64, .f32⟩
  | 54 => ⟨S_, .f32⟩
  | 55 => ⟨S80000x64, .f32⟩
  | 56 => ⟨S80000x64, .f32⟩
  | 57 => ⟨S_, .f32⟩
  | 58 => ⟨S80000x64, .f32⟩
  | 59 => ⟨S80000x64, .f32⟩
  | 60 => ⟨S4x150000x64, .f32⟩
  | 61 => ⟨S_, .f32⟩
  | 62 => ⟨S4x64, .f32⟩
  | 63 => ⟨S4x1x64, .f32⟩
  | 64 => ⟨S4x1x64, .f32⟩
  | 65 => ⟨S_, .f32⟩
  | 66 => ⟨S4x1x64, .f32⟩
  | 67 => ⟨S4x1x64, .f32⟩
  | 68 => ⟨S4x150000x64, .f32⟩
  | 69 => ⟨S4x150000x64, .f32⟩
  | 70 => ⟨S4x80000x64, .f32⟩
  | 71 => ⟨S_, .f32⟩
  | 72 => ⟨S4x64, .f32⟩
  | 73 => ⟨S4x1x64, .f32⟩
  | 74 => ⟨S4x1x64, .f32⟩
  | 75 => ⟨S_, .f32⟩
  | 76 => ⟨S4x1x64, .f32⟩
  | 77 => ⟨S4x1x64, .f32⟩
  | 78 => ⟨S4x80000x64, .f32⟩
  | 79 => ⟨S4x80000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_cst_23 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_v121 : Ref sig .tc := ⟨.hbm, 170, rfl⟩
abbrev main_cst_25 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_cst_27 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_28 : Ref sig .tc := ⟨.hbm, 182, rfl⟩
abbrev main_v130 : Ref sig .tc := ⟨.hbm, 183, rfl⟩
abbrev main_v131 : Ref sig .tc := ⟨.hbm, 184, rfl⟩
abbrev main_cst_29 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_30 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_32 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_33 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S80000x64 : S_.BroadcastsInDim S80000x64 (![] : Fin 0 → Fin S80000x64.rank)
  bcast_S150000x64_S1x150000x64_1_2 : S150000x64.BroadcastsInDim S1x150000x64 (![1, 2] : Fin 2 → Fin S1x150000x64.rank)
  concatenates_S1x150000x64_S1x150000x64_S1x150000x64_S1x150000x64_S4x150000x64_d0 : Shape.Concatenates [S1x150000x64, S1x150000x64, S1x150000x64, S1x150000x64] S4x150000x64 0
  bcast_S80000x64_S1x80000x64_1_2 : S80000x64.BroadcastsInDim S1x80000x64 (![1, 2] : Fin 2 → Fin S1x80000x64.rank)
  concatenates_S1x80000x64_S1x80000x64_S1x80000x64_S1x80000x64_S4x80000x64_d0 : Shape.Concatenates [S1x80000x64, S1x80000x64, S1x80000x64, S1x80000x64] S4x80000x64 0
  reducesTo_S4x150000x64_S150000x64_d0 : S4x150000x64.ReducesTo [0] S150000x64
  h_S_ : 0 < S_.numel
  reducesTo_S4x80000x64_S80000x64_d0 : S4x80000x64.ReducesTo [0] S80000x64
  reducesTo_S4x150000x64_S4x64_d1 : S4x150000x64.ReducesTo [1] S4x64
  bcast_S4x64_S4x1x64_0_2 : S4x64.BroadcastsInDim S4x1x64 (![0, 2] : Fin 2 → Fin S4x1x64.rank)
  bcast_S_S4x1x64 : S_.BroadcastsInDim S4x1x64 (![] : Fin 0 → Fin S4x1x64.rank)
  bcast_S4x1x64_S4x150000x64_0_1_2 : S4x1x64.BroadcastsInDim S4x150000x64 (![0, 1, 2] : Fin 3 → Fin S4x150000x64.rank)
  reducesTo_S4x80000x64_S4x64_d1 : S4x80000x64.ReducesTo [1] S4x64
  bcast_S4x1x64_S4x80000x64_0_1_2 : S4x1x64.BroadcastsInDim S4x80000x64 (![0, 1, 2] : Fin 3 → Fin S4x80000x64.rank)
  gather_S80000x64_S2000000x1_S2000000x64_1_0_n_n_0_1_164_wf : GatherDims.WF S80000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S2000000x1_S2000000x64_1_0_n_n_0_1_164_wf : GatherDims.WF S150000x64 S2000000x1 S2000000x64 [1] [0] [] [0] [] 1 ![1, 64]
  scatter_S80000x64_S2000000x1_S2000000x64_1_0_0_1_wf : ScatterDims.WF S80000x64 S2000000x1 S2000000x64 [1] [0] [0] 1
  dot_S150000x64_S64x64_S150000x64_1_0_0_1_n_n_wf : DotDims.WF S150000x64 S64x64 S150000x64 [1] [0] [0] [1] [] []
  dot_S80000x64_S64x64_S80000x64_1_0_0_1_n_n_wf : DotDims.WF S80000x64 S64x64 S80000x64 [1] [0] [0] [1] [] []

variable [Facts₀]

def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf

class Facts : Prop extends Facts₀ where

variable [Facts]
-- ==== Proof.K.R0Base.lean ====
import proofs.«172980_j39402029973982_1_alg».proof.Proof.Gen.Kernel.Launch
import proofs.«172980_j39402029973982_1_alg».proof.Proof.Gen.Kernel.Skeleton
import proofs.«172980_j39402029973982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Gen Idealize.ShloMosaic Idealize.ShloMosaic.TcCoe Idealize.SL Idealize.SL.RA Idealize.SL.BI Idealize.SL.BI.BIBase Idealize.SL.Sem
open scoped Idealize.SL.BI

variable {F : FTy → Type} [FloatOps F]

/-- The condition under which the body resets the accumulator, as it computes it from the grid coordinate. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val = 0 :=
  (by decide +kernel : ∀ t : Fin grid0.N, cond0_0 (grid0.coords t) ↔ t.val = 0)

abbrev hs0_0 (t : Fin cfg0.N) : (win0_0.stage (cfg0.slots t 0) : Memref sig .tc .vmem S4x5000x64 .f32).IsWhole := hstage0_0 ((cfg0.slots t 0).cast nbuf0_0)
abbrev hs0_1 (t : Fin cfg0.N) : (win0_1.stage (cfg0.slots t 1) : Memref sig .tc .vmem S64x64 .f32).IsWhole := hstage0_1 ((cfg0.slots t 1).cast nbuf0_1)
abbrev hs0_2 (t : Fin cfg0.N) : (win0_2.stage (cfg0.slots t 2) : Memref sig .tc .vmem S5000x64 .f32).IsWhole := hstage0_2 ((cfg0.slots t 2).cast nbuf0_2)
abbrev hs0_3 (t : Fin cfg0.N) : (win0_3.stage (cfg0.slots t 3) : Memref sig .tc .vmem S4x64 .f32).IsWhole := hstage0_3 ((cfg0.slots t 3).cast nbuf0_3)

/-- Core `c` holds all of the whole memref `m` at contents `x`. -/
abbrev hs0_own (c : Dev nD) {S : Shape} {m : Memref sig .tc .vmem S .f32} (_ : m.IsWhole) (x : Vec F S .f32) : sProp (MT nD τ sig Unit (Elt F) ℕ (UR sig nD τ) ℕ) :=
  owns (c : Thread nD τ) m fullShare x

/-- Window `w`'s block at grid point `t`, read off its array as the region finds it. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's triple: from the inputs at `x0`, `x1`, the row output at anything and the accumulator as `P` says, to the inputs unchanged and the outputs at `o`. -/
def kernelRun0_spec (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32) (P : sProp (MT nD τ sig Unit (Elt F) ℕ (UR sig nD τ) ℕ)) (o : Vec F S5000x64 .f32 × Vec F S4x64 .f32) : Prop :=
  ∀ (E : Set ℕ) (K : PUnit → sProp _),
    iprop(hs0_own c harg1 x0 ∗ hs0_own c harg2 x1 ∗ (∃ d, hs0_own c harg3 d) ∗ P
        ∗ (iprop(hs0_own c harg1 x0 ∗ hs0_own c harg2 x1 ∗ hs0_own c harg3 o.1 ∗ hs0_own c harg4 o.2) -∗ K ⟨⟩))
      ⊢ wp frame (wpE (defs₀ (F := F)) Variants.none c none) E (cc0__fused_kernel i arg1 harg1 arg2 harg2 arg3 harg3 arg4 harg4) K

end Cert.Kernel.Hand

end
-- ==== Proof.K.R0A.lean ====
import proofs.«172980_j39402029973982_1_alg».proof.Proof.K.R0Base

noncomputable section

namespace Cert.Kernel.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32)

set_option maxHeartbeats 1000000 in
/-- The first point's run (the accumulator reset, then added to); the witness is what its stores leave. -/
def kernelRun0_A (hc0 : cond0_0 i) :
    { o // kernelRun0_spec c i harg1 harg2 harg3 harg4 x0 x1 iprop(∃ d, hs0_own c harg4 d) o } := by
  refine ⟨(?_, ?_), fun E K => ?run⟩
  case run =>
    simp only [cc0__fused_kernel_eq_skeleton]; unfold cc0__fused_kernel_skel
    unfold hs0_own owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S5000x64.size (by sl_kernel_rfl))
    iexists _; isplitr; swap; · iexact H3
    ipureintro; exact View.read_writes_eq_canon (Val := Elt F) _ _ _ (View.cover_of_tiledL _ S4x64.size (by sl_kernel_rfl))

end Cert.Kernel.Hand

end
-- ==== Proof.K.R0B.lean ====
import proofs.«172980_j39402029973982_1_alg».proof.Proof.K.R0A

noncomputable section

namespace Cert.Kernel.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32)

set_option maxHeartbeats 1000000 in
/-- A later point's run (the accumulator at `xo3` added to); the witness is what its stores leave. -/
def kernelRun0_B (hc0 : ¬cond0_0 i) (xo3 : Vec F S4x64 .f32) :
    { o // kernelRun0_spec c i harg1 harg2 harg3 harg4 x0 x1 (hs0_own c harg4 xo3) o } := by
  refine ⟨(?_, ?_), fun E K => ?run⟩
  case run =>
    simp only [cc0__fused_kernel_eq_skeleton]; unfold cc0__fused_kernel_skel
    unfold hs0_own owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S5000x64.size (by sl_kernel_rfl))
    iexists _; isplitr; swap; · iexact H3
    ipureintro; exact View.read_writes_eq_canon (Val := Elt F) _ _ _ (View.cover_of_tiledL _ S4x64.size (by sl_kernel_rfl))

end Cert.Kernel.Hand

end
-- ==== Proof.K.R0.lean ====
import proofs.«172980_j39402029973982_1_alg».proof.Proof.K.R0B

noncomputable section

namespace Cert.Kernel.Hand

open Gen Idealize.ShloMosaic Idealize.ShloMosaic.TcCoe Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

/-- Each case's run at point `t`, on that point's memrefs and input blocks. -/
abbrev kernelRun0_A_at (t : Fin cfg0.N) (h0 : t.val = 0) :=
  kernelRun0_A c (grid0.coords t) (hs0_0 t) (hs0_1 t) (hs0_2 t) (hs0_3 t) (iblk0 V c 0 t) (iblk0 V c 1 t) ((hcond0_0 t).mpr h0)
abbrev kernelRun0_B_at (t : Fin cfg0.N) (h0 : t.val ≠ 0) :=
  kernelRun0_B c (grid0.coords t) (hs0_0 t) (hs0_1 t) (hs0_2 t) (hs0_3 t) (iblk0 V c 0 t) (iblk0 V c 1 t) (mt (hcond0_0 t).mp h0)

/-- What the body leaves in the two outputs at point `n`: the first case at 0, the later case after, its accumulator what point `n - 1` left. -/
def outsAt0 : (n : ℕ) → n < cfg0.N → Vec F S5000x64 .f32 × Vec F S4x64 .f32
  | 0, hn => (kernelRun0_A_at V c ⟨0, hn⟩ rfl).1
  | n + 1, hn => (kernelRun0_B_at V c ⟨n + 1, hn⟩ n.succ_ne_zero (outsAt0 n (Nat.lt_of_succ_lt hn)).2).1

/-- The region's proof data: the arrays as the region finds them; after the body each input at its block, the outputs at `outsAt0`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (w : Fin cfg0.W) : (dat0 V c).A w = V c (Pipeline.arrRef spec0 w) := rfl

/-- At every point the body finds each input at its block: it leaves the inputs as they are. -/
theorem before0_0 (t : Fin cfg0.N) (d) : (dat0 V c).before 0 t d = iblk0 V c 0 t :=
  (Dat.before_in_eq_fetched _ 0 rfl (fun _ => rfl) (fun _ _ _ => rfl) (fun _ => rfl) t d).trans rfl
theorem before0_1 (t : Fin cfg0.N) (d) : (dat0 V c).before 1 t d = iblk0 V c 1 t :=
  (Dat.before_in_eq_fetched _ 1 rfl (fun _ => rfl) (fun _ _ _ => rfl) (fun _ => rfl) t d).trans rfl

/-- After the first point the body finds the accumulator as the point before left it. -/
theorem before0_3_succ (n : ℕ) (hn : n + 1 < cfg0.N) (d) : (dat0 V c).before 3 ⟨n + 1, hn⟩ d = (outsAt0 V c n (Nat.lt_of_succ_lt hn)).2 :=
  Dat.before_out_kept _ 3 rfl ⟨n + 1, hn⟩ n.succ_ne_zero
    (Bool.eq_false_iff.mpr fun h => by have := (flush0_3 _).mp h; have : n + 1 < 30 := lt_of_lt_of_eq hn N_0; dsimp only at *; omega)
    (fun _ => rfl) (fun _ _ => rfl) d

/-- The body at any point: the case the point is in runs from what it finds and leaves what the proof data says; `R1`, `R2` pass through. -/
theorem sound_body0 (t : Fin cfg0.N) (R1 R2 : sProp (MT nD τ sig Unit (Elt F) ℕ (UR sig nD τ) ℕ)) :
    iprop(R1 ∗ R2 ∗ (∃ d, hs0_own c (hs0_0 t) ((dat0 V c).before 0 t d)) ∗ (∃ d, hs0_own c (hs0_1 t) ((dat0 V c).before 1 t d))
        ∗ (∃ d, hs0_own c (hs0_2 t) ((dat0 V c).before 2 t d)) ∗ (∃ d, hs0_own c (hs0_3 t) ((dat0 V c).before 3 t d)))
      ⊢ wp frame (wpE (defs₀ (F := F)) Variants.none c none) Set.univ (bodyAt0 t) fun _ =>
        iprop(R1 ∗ R2 ∗ hs0_own c (hs0_0 t) (iblk0 V c 0 t) ∗ hs0_own c (hs0_1 t) (iblk0 V c 1 t)
          ∗ hs0_own c (hs0_2 t) (outsAt0 V c t.val t.isLt).1 ∗ hs0_own c (hs0_3 t) (outsAt0 V c t.val t.isLt).2) := by
  obtain ⟨P, hP, hrun⟩ : ∃ P, (iprop(∃ d, hs0_own c (hs0_3 t) ((dat0 V c).before 3 t d)) ⊢ P) ∧
      kernelRun0_spec c (grid0.coords t) (hs0_0 t) (hs0_1 t) (hs0_2 t) (hs0_3 t) (iblk0 V c 0 t) (iblk0 V c 1 t) P (outsAt0 V c t.val t.isLt) := by
    obtain ⟨_ | n, hn⟩ := t <;> dsimp only <;> rw [outsAt0]
    · have h := (kernelRun0_A_at V c ⟨0, hn⟩ rfl).2
      exact ⟨_, by iintro ⟨%d, H⟩; iexists _; iexact H, h⟩
    · have h := (kernelRun0_B_at V c ⟨n + 1, hn⟩ n.succ_ne_zero (outsAt0 V c n (Nat.lt_of_succ_lt hn)).2).2
      exact ⟨_, by simp only [before0_3_succ]; iintro ⟨%d, H⟩; iexact H, h⟩
  simp only [before0_0, before0_1]
  iintro ⟨HΦ, Ho, ⟨%d0, H0⟩, ⟨%d1, H1⟩, ⟨%d2, H2⟩, H3⟩
  iapply hrun Set.univ _
  isplitl [H0]; · iexact H0
  isplitl [H1]; · iexact H1
  isplitl [H2]; · iexists _; iexact H2
  isplitl [H3]; · iapply hP; iexact H3
  iintro H
  isplitl [HΦ]; · iexact HΦ
  isplitl [Ho]; · iexact Ho
  iexact H

/-- The library's body obligation, at every point. -/
theorem body_obligation0 : BodyObligation (dat0 (F := F) V c) (defs₀ (F := F)) Variants.none () Set.univ := fun t => by
  rw [bigSep_W0, bigSep_W0]
  exact sound_body0 V c t _ _

end Cert.Kernel.Hand

end
-- ==== Proof.K.R1Base.lean ====
import proofs.«172980_j39402029973982_1_alg».proof.Proof.Gen.Kernel.Launch
import proofs.«172980_j39402029973982_1_alg».proof.Proof.Gen.Kernel.Skeleton
import proofs.«172980_j39402029973982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Gen Idealize.ShloMosaic Idealize.ShloMosaic.TcCoe Idealize.SL Idealize.SL.RA Idealize.SL.BI Idealize.SL.BI.BIBase Idealize.SL.Sem
open scoped Idealize.SL.BI

variable {F : FTy → Type} [FloatOps F]

/-- The condition under which the body resets the accumulator, as it computes it from the grid coordinate. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val = 0 :=
  (by decide +kernel : ∀ t : Fin grid1.N, cond1_0 (grid1.coords t) ↔ t.val = 0)

abbrev hs1_0 (t : Fin cfg1.N) : (win1_0.stage (cfg1.slots t 0) : Memref sig .tc .vmem S4x2000x64 .f32).IsWhole := hstage1_0 ((cfg1.slots t 0).cast nbuf1_0)
abbrev hs1_1 (t : Fin cfg1.N) : (win1_1.stage (cfg1.slots t 1) : Memref sig .tc .vmem S64x64 .f32).IsWhole := hstage1_1 ((cfg1.slots t 1).cast nbuf1_1)
abbrev hs1_2 (t : Fin cfg1.N) : (win1_2.stage (cfg1.slots t 2) : Memref sig .tc .vmem S2000x64 .f32).IsWhole := hstage1_2 ((cfg1.slots t 2).cast nbuf1_2)
abbrev hs1_3 (t : Fin cfg1.N) : (win1_3.stage (cfg1.slots t 3) : Memref sig .tc .vmem S4x64 .f32).IsWhole := hstage1_3 ((cfg1.slots t 3).cast nbuf1_3)

/-- Core `c` holds all of the whole memref `m` at contents `x`. -/
abbrev hs1_own (c : Dev nD) {S : Shape} {m : Memref sig .tc .vmem S .f32} (_ : m.IsWhole) (x : Vec F S .f32) : sProp (MT nD τ sig Unit (Elt F) ℕ (UR sig nD τ) ℕ) :=
  owns (c : Thread nD τ) m fullShare x

/-- Window `w`'s block at grid point `t`, read off its array as the region finds it. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's triple: from the inputs at `x0`, `x1`, the row output at anything and the accumulator as `P` says, to the inputs unchanged and the outputs at `o`. -/
def kernelRun1_spec (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32) (P : sProp (MT nD τ sig Unit (Elt F) ℕ (UR sig nD τ) ℕ)) (o : Vec F S2000x64 .f32 × Vec F S4x64 .f32) : Prop :=
  ∀ (E : Set ℕ) (K : PUnit → sProp _),
    iprop(hs1_own c harg1 x0 ∗ hs1_own c harg2 x1 ∗ (∃ d, hs1_own c harg3 d) ∗ P
        ∗ (iprop(hs1_own c harg1 x0 ∗ hs1_own c harg2 x1 ∗ hs1_own c harg3 o.1 ∗ hs1_own c harg4 o.2) -∗ K ⟨⟩))
      ⊢ wp frame (wpE (defs₀ (F := F)) Variants.none c none) E (cc1__fused_kernel i arg1 harg1 arg2 harg2 arg3 harg3 arg4 harg4) K

end Cert.Kernel.Hand

end
-- ==== Proof.K.R1A.lean ====
import proofs.«172980_j39402029973982_1_alg».proof.Proof.K.R1Base

noncomputable section

namespace Cert.Kernel.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32)

set_option maxHeartbeats 1000000 in
/-- The first point's run (the accumulator reset, then added to); the witness is what its stores leave. -/
def kernelRun1_A (hc0 : cond1_0 i) :
    { o // kernelRun1_spec c i harg1 harg2 harg3 harg4 x0 x1 iprop(∃ d, hs1_own c harg4 d) o } := by
  refine ⟨(?_, ?_), fun E K => ?run⟩
  case run =>
    simp only [cc1__fused_kernel_eq_skeleton]; unfold cc1__fused_kernel_skel
    unfold hs1_own owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S2000x64.size (by sl_kernel_rfl))
    iexists _; isplitr; swap; · iexact H3
    ipureintro; exact View.read_writes_eq_canon (Val := Elt F) _ _ _ (View.cover_of_tiledL _ S4x64.size (by sl_kernel_rfl))

end Cert.Kernel.Hand

end
-- ==== Proof.K.R1B.lean ====
import proofs.«172980_j39402029973982_1_alg».proof.Proof.K.R1A

noncomputable section

namespace Cert.Kernel.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32)

set_option maxHeartbeats 1000000 in
/-- A later point's run (the accumulator at `xo3` added to); the witness is what its stores leave. -/
def kernelRun1_B (hc0 : ¬cond1_0 i) (xo3 : Vec F S4x64 .f32) :
    { o // kernelRun1_spec c i harg1 harg2 harg3 harg4 x0 x1 (hs1_own c harg4 xo3) o } := by
  refine ⟨(?_, ?_), fun E K => ?run⟩
  case run =>
    simp only [cc1__fused_kernel_eq_skeleton]; unfold cc1__fused_kernel_skel
    unfold hs1_own owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S2000x64.size (by sl_kernel_rfl))
    iexists _; isplitr; swap; · iexact H3
    ipureintro; exact View.read_writes_eq_canon (Val := Elt F) _ _ _ (View.cover_of_tiledL _ S4x64.size (by sl_kernel_rfl))

end Cert.Kernel.Hand

end
-- ==== Proof.K.R1.lean ====
import proofs.«172980_j39402029973982_1_alg».proof.Proof.K.R1B

noncomputable section

namespace Cert.Kernel.Hand

open Gen Idealize.ShloMosaic Idealize.ShloMosaic.TcCoe Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

/-- Each case's run at point `t`, on that point's memrefs and input blocks. -/
abbrev kernelRun1_A_at (t : Fin cfg1.N) (h0 : t.val = 0) :=
  kernelRun1_A c (grid1.coords t) (hs1_0 t) (hs1_1 t) (hs1_2 t) (hs1_3 t) (iblk1 V c 0 t) (iblk1 V c 1 t) ((hcond1_0 t).mpr h0)
abbrev kernelRun1_B_at (t : Fin cfg1.N) (h0 : t.val ≠ 0) :=
  kernelRun1_B c (grid1.coords t) (hs1_0 t) (hs1_1 t) (hs1_2 t) (hs1_3 t) (iblk1 V c 0 t) (iblk1 V c 1 t) (mt (hcond1_0 t).mp h0)

/-- What the body leaves in the two outputs at point `n`: the first case at 0, the later case after, its accumulator what point `n - 1` left. -/
def outsAt1 : (n : ℕ) → n < cfg1.N → Vec F S2000x64 .f32 × Vec F S4x64 .f32
  | 0, hn => (kernelRun1_A_at V c ⟨0, hn⟩ rfl).1
  | n + 1, hn => (kernelRun1_B_at V c ⟨n + 1, hn⟩ n.succ_ne_zero (outsAt1 n (Nat.lt_of_succ_lt hn)).2).1

/-- The region's proof data: the arrays as the region finds them; after the body each input at its block, the outputs at `outsAt1`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (w : Fin cfg1.W) : (dat1 V c).A w = V c (Pipeline.arrRef spec1 w) := rfl

/-- At every point the body finds each input at its block: it leaves the inputs as they are. -/
theorem before1_0 (t : Fin cfg1.N) (d) : (dat1 V c).before 0 t d = iblk1 V c 0 t :=
  (Dat.before_in_eq_fetched _ 0 rfl (fun _ => rfl) (fun _ _ _ => rfl) (fun _ => rfl) t d).trans rfl
theorem before1_1 (t : Fin cfg1.N) (d) : (dat1 V c).before 1 t d = iblk1 V c 1 t :=
  (Dat.before_in_eq_fetched _ 1 rfl (fun _ => rfl) (fun _ _ _ => rfl) (fun _ => rfl) t d).trans rfl

/-- After the first point the body finds the accumulator as the point before left it. -/
theorem before1_3_succ (n : ℕ) (hn : n + 1 < cfg1.N) (d) : (dat1 V c).before 3 ⟨n + 1, hn⟩ d = (outsAt1 V c n (Nat.lt_of_succ_lt hn)).2 :=
  Dat.before_out_kept _ 3 rfl ⟨n + 1, hn⟩ n.succ_ne_zero
    (Bool.eq_false_iff.mpr fun h => by have := (flush1_3 _).mp h; have : n + 1 < 40 := lt_of_lt_of_eq hn N_1; dsimp only at *; omega)
    (fun _ => rfl) (fun _ _ => rfl) d

/-- The body at any point: the case the point is in runs from what it finds and leaves what the proof data says; `R1`, `R2` pass through. -/
theorem sound_body1 (t : Fin cfg1.N) (R1 R2 : sProp (MT nD τ sig Unit (Elt F) ℕ (UR sig nD τ) ℕ)) :
    iprop(R1 ∗ R2 ∗ (∃ d, hs1_own c (hs1_0 t) ((dat1 V c).before 0 t d)) ∗ (∃ d, hs1_own c (hs1_1 t) ((dat1 V c).before 1 t d))
        ∗ (∃ d, hs1_own c (hs1_2 t) ((dat1 V c).before 2 t d)) ∗ (∃ d, hs1_own c (hs1_3 t) ((dat1 V c).before 3 t d)))
      ⊢ wp frame (wpE (defs₀ (F := F)) Variants.none c none) Set.univ (bodyAt1 t) fun _ =>
        iprop(R1 ∗ R2 ∗ hs1_own c (hs1_0 t) (iblk1 V c 0 t) ∗ hs1_own c (hs1_1 t) (iblk1 V c 1 t)
          ∗ hs1_own c (hs1_2 t) (outsAt1 V c t.val t.isLt).1 ∗ hs1_own c (hs1_3 t) (outsAt1 V c t.val t.isLt).2) := by
  obtain ⟨P, hP, hrun⟩ : ∃ P, (iprop(∃ d, hs1_own c (hs1_3 t) ((dat1 V c).before 3 t d)) ⊢ P) ∧
      kernelRun1_spec c (grid1.coords t) (hs1_0 t) (hs1_1 t) (hs1_2 t) (hs1_3 t) (iblk1 V c 0 t) (iblk1 V c 1 t) P (outsAt1 V c t.val t.isLt) := by
    obtain ⟨_ | n, hn⟩ := t <;> dsimp only <;> rw [outsAt1]
    · have h := (kernelRun1_A_at V c ⟨0, hn⟩ rfl).2
      exact ⟨_, by iintro ⟨%d, H⟩; iexists _; iexact H, h⟩
    · have h := (kernelRun1_B_at V c ⟨n + 1, hn⟩ n.succ_ne_zero (outsAt1 V c n (Nat.lt_of_succ_lt hn)).2).2
      exact ⟨_, by simp only [before1_3_succ]; iintro ⟨%d, H⟩; iexact H, h⟩
  simp only [before1_0, before1_1]
  iintro ⟨HΦ, Ho, ⟨%d0, H0⟩, ⟨%d1, H1⟩, ⟨%d2, H2⟩, H3⟩
  iapply hrun Set.univ _
  isplitl [H0]; · iexact H0
  isplitl [H1]; · iexact H1
  isplitl [H2]; · iexists _; iexact H2
  isplitl [H3]; · iapply hP; iexact H3
  iintro H
  isplitl [HΦ]; · iexact HΦ
  isplitl [Ho]; · iexact Ho
  iexact H

/-- The library's body obligation, at every point. -/
theorem body_obligation1 : BodyObligation (dat1 (F := F) V c) (defs₀ (F := F)) Variants.none () Set.univ := fun t => by
  rw [bigSep_W1, bigSep_W1]
  exact sound_body1 V c t _ _

end Cert.Kernel.Hand

end
-- ==== Proof.K.R2.lean ====
import proofs.«172980_j39402029973982_1_alg».proof.Proof.Gen.Kernel.Launch
import proofs.«172980_j39402029973982_1_alg».proof.Proof.Gen.Kernel.Skeleton
import proofs.«172980_j39402029973982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Idealize.ShloMosaic Idealize.ShloMosaic.TcCoe Idealize.SL.RA Idealize.SL.BI Idealize.SL.BI.BIBase Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4x5000x64 := Rect.unit ![0, 0, 0] S4x5000x64.size inb_S4x5000x64_S4x5000x64_0_0_0

def out2_2 (x0 : Vec F S4x5000x64 .f32) (x1 : Vec F S4x1x64 .f32) : Vec F S4x5000x64 .f32 :=
  View.canon [⟨r2_0, k2_pay1 (View.ld x0 r2_0) (View.ld x1 (Rect.unit ![0, 0, 0] S4x1x64.size inb_S4x1x64_S4x1x64_0_0_0))⟩]

set_option maxHeartbeats 1000000 in
-- The one store covers the whole output, so what the output held before drops out.
theorem sound_kernel2 {E : Set ℕ} {i : grid2.Coords} {arg1 arg3 : Memref sig .tc .vmem S4x5000x64 .f32} {arg2 : Memref sig .tc .vmem S4x1x64 .f32}
    {harg1 : arg1.IsWhole} {harg2 : arg2.IsWhole} {harg3 : arg3.IsWhole} {x0 d : Vec F S4x5000x64 .f32} {x1 : Vec F S4x1x64 .f32}
    {K : PUnit → sProp (MT nD τ sig Unit (Elt F) ℕ (UR sig nD τ) ℕ)} :
    iprop(owns c.tc arg1 fullShare x0 ∗ owns c.tc arg2 fullShare x1 ∗ owns c.tc arg3 fullShare d
        ∗ (owns c.tc arg1 fullShare x0 ∗ owns c.tc arg2 fullShare x1 ∗ owns c.tc arg3 fullShare (out2_2 x0 x1) -∗ K ⟨⟩))
      ⊢ wp frame (wpE defs₀ Variants.none c none) E (cc2__normalize_kernel i arg1 harg1 arg2 harg2 arg3 harg3) K := by
  unfold owns
  sl_unfold [cc2__normalize_kernel]
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4x5000x64.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = out2_2 ((dat2 V c).after 0 t) ((dat2 V c).after 1 t) := by dsimp only [dat2]

-- The body leaves its two inputs as it finds them.
theorem before2_in : ∀ (w : Fin cfg2.W) (_ : (cfg2.win w).isOut = false) (t : Fin cfg2.N) (d), (dat2 V c).before w t d = (dat2 V c).after w t
  | ⟨0, _⟩, _, t, d | ⟨1, _⟩, _, t, d =>
    ((dat2 V c).before_in_eq_fetched _ rfl (fun _ => rfl) (fun _ _ _ => rfl) (fun _ => rfl) t d).trans rfl
  | ⟨2, _⟩, h, _, _ => by cases h

theorem body_obligation2 : BodyObligation (dat2 V c) defs₀ Variants.none () Set.univ := fun t => by
  rw [bigSep_W2, bigSep_W2, after2_2]
  sl_whnfR [defs₀, Defs.onTc]
  simp only [before2_in V c 0 rfl, before2_in V c 1 rfl]
  iintro ⟨HΦ, Ho, ⟨%_, H0⟩, ⟨%_, H1⟩, ⟨%_, H2⟩⟩
  iapply sound_kernel2 c
  iframe H0 H1 H2
  iintro H
  icombine HΦ Ho H as G
  iexact G

end Cert.Kernel.Hand

end
-- ==== Proof.K.R3.lean ====
import proofs.«172980_j39402029973982_1_alg».proof.Proof.Gen.Kernel.Launch
import proofs.«172980_j39402029973982_1_alg».proof.Proof.Gen.Kernel.Skeleton
import proofs.«172980_j39402029973982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Idealize.ShloMosaic Idealize.ShloMosaic.TcCoe Idealize.SL.RA Idealize.SL.BI Idealize.SL.BI.BIBase Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4x2000x64 := Rect.unit ![0, 0, 0] S4x2000x64.size inb_S4x2000x64_S4x2000x64_0_0_0

def out3_2 (x0 : Vec F S4x2000x64 .f32) (x1 : Vec F S4x1x64 .f32) : Vec F S4x2000x64 .f32 :=
  View.canon [⟨r3_0, k3_pay1 (View.ld x0 r3_0) (View.ld x1 (Rect.unit ![0, 0, 0] S4x1x64.size inb_S4x1x64_S4x1x64_0_0_0))⟩]

set_option maxHeartbeats 1000000 in
-- The one store covers the whole output, so what the output held before drops out.
theorem sound_kernel3 {E : Set ℕ} {i : grid3.Coords} {arg1 arg3 : Memref sig .tc .vmem S4x2000x64 .f32} {arg2 : Memref sig .tc .vmem S4x1x64 .f32}
    {harg1 : arg1.IsWhole} {harg2 : arg2.IsWhole} {harg3 : arg3.IsWhole} {x0 d : Vec F S4x2000x64 .f32} {x1 : Vec F S4x1x64 .f32}
    {K : PUnit → sProp (MT nD τ sig Unit (Elt F) ℕ (UR sig nD τ) ℕ)} :
    iprop(owns c.tc arg1 fullShare x0 ∗ owns c.tc arg2 fullShare x1 ∗ owns c.tc arg3 fullShare d
        ∗ (owns c.tc arg1 fullShare x0 ∗ owns c.tc arg2 fullShare x1 ∗ owns c.tc arg3 fullShare (out3_2 x0 x1) -∗ K ⟨⟩))
      ⊢ wp frame (wpE defs₀ Variants.none c none) E (cc3__normalize_kernel i arg1 harg1 arg2 harg2 arg3 harg3) K := by
  unfold owns
  sl_unfold [cc3__normalize_kernel]
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4x2000x64.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

theorem after3_2 (t : Fin cfg3.N) : (dat3 V c).after 2 t = out3_2 ((dat3 V c).after 0 t) ((dat3 V c).after 1 t) := by dsimp only [dat3]

-- The body leaves its two inputs as it finds them.
theorem before3_in : ∀ (w : Fin cfg3.W) (_ : (cfg3.win w).isOut = false) (t : Fin cfg3.N) (d), (dat3 V c).before w t d = (dat3 V c).after w t
  | ⟨0, _⟩, _, t, d | ⟨1, _⟩, _, t, d =>
    ((dat3 V c).before_in_eq_fetched _ rfl (fun _ => rfl) (fun _ _ _ => rfl) (fun _ => rfl) t d).trans rfl
  | ⟨2, _⟩, h, _, _ => by cases h

theorem body_obligation3 : BodyObligation (dat3 V c) defs₀ Variants.none () Set.univ := fun t => by
  rw [bigSep_W3, bigSep_W3, after3_2]
  sl_whnfR [defs₀, Defs.onTc]
  simp only [before3_in V c 0 rfl, before3_in V c 1 rfl]
  iintro ⟨HΦ, Ho, ⟨%_, H0⟩, ⟨%_, H1⟩, ⟨%_, H2⟩⟩
  iapply sound_kernel3 c
  iframe H0 H1 H2
  iintro H
  icombine HΦ Ho H as G
  iexact G

end Cert.Kernel.Hand

end
-- ==== Proof.K.Fold.lean ====
import proofs.«172980_j39402029973982_1_alg».proof.Proof.K.R0
import proofs.«172980_j39402029973982_1_alg».proof.Proof.K.R1
import proofs.«172980_j39402029973982_1_alg».proof.Proof.K.R2
import proofs.«172980_j39402029973982_1_alg».proof.Proof.K.R3

noncomputable section

namespace Cert.Kernel.Hand

open Cert.Kernel Cert.Kernel.Gen Idealize.ShloMosaic Idealize.ShloMosaic.TcCoe Idealize.SL.Sem

variable {F : FTy → Type} [FloatOps F]

-- A core's buffer contents read at the TensorCore's references.
abbrev rd (W : Dev nD → Valuation τ sig (Elt F)) : (c : Dev nD) → (b : Ref sig .tc) → Buf (Elt F) ((c : Thread nD τ).loc b) :=
  fun c b => W c b

variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
abbrev V3 := rd (W3 m ρ)
-- After a region: its arrays at what the pipeline leaves in them, every other buffer as before.
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 := rd (W4 m ρ)
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev V5 := rd (W5 m ρ)
abbrev W6 : Dev nD → Valuation τ sig (Elt F) := fun c => StableHlo.after main_part2_ops1 (W5 m ρ c)
abbrev V6 := rd (W6 m ρ)
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev V7 := rd (W7 m ρ)
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev V8 := rd (W8 m ρ)

end Cert.Kernel.Hand

end
-- ==== Proof.K.Run.lean ====
import proofs.«172980_j39402029973982_1_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V7 m ρ) c
-- What the four regions' proof data have in common.
theorem plain : ∀ (p : Fin 4) (c : Dev nD), (∀ w, (pdats m ρ p c).q w = fullShare) ∧ (∀ t, (pdats m ρ p c).owed t = 0)
    ∧ (∀ t, (pdats m ρ p c).recorded t = Set.univ) ∧ ∀ t, (pdats m ρ p c).Φ t = Pipeline.ΦA (cfgs p).spec c
  | ⟨0, _⟩, _ | ⟨1, _⟩, _ | ⟨2, _⟩, _ | ⟨3, _⟩, _ => ⟨fun _ => rfl, fun _ => rfl, fun _ => rfl, fun _ => rfl⟩
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- The thread state between two segments, at the buffer contents `W`.
abbrev T (W : Dev nD → Valuation τ sig (Elt F)) (c : Dev nD) : sProp 𝕄 :=
  iprop(StableHlo.held (c : Thread nD τ) (Pipeline.ucRefs τ sig) (W c) ∗ R c)
-- A stretch of host operations, none of which allocates, takes the thread state at `W` to the one after the operations.
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
-- Region `p` takes the thread state at `W` to the one at `W'`, which differs from `W` only at the region's arrays.
def reg (p : Fin 4) (lf : Pipeline.LaunchFacts (nD := nD) (τ := τ) cfgs p) (W W' : Dev nD → Valuation τ sig (Elt F))
    (hb : ∀ c, BodyObligation (pdats m ρ p c) defs₀ 𝒱₀ () Set.univ)
    (hA : ∀ c w, (pdats m ρ p c).A w = W c (Pipeline.arrRef (cfgs p).spec w))
    (hF : ∀ c w, W' c (Pipeline.arrRef (cfgs p).spec w) = (pdats m ρ p c).arrAt w (cfgs p).N)
    (hrest : ∀ c (b : Ref sig .tc), (∀ w, Pipeline.arrRef (cfgs p).spec w ≠ b) → W' c b = W c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).2.1
  pre := T W
  post := T W'
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    obtain ⟨hq, ho, hr, -⟩ := plain m ρ p c
    have hsplit := Pipeline.arrays_of_unscopedBufs (p := p) (pcfgs (F := F)) adm (pdats m ρ) lf.win lf.arr_whole c
      ((pdats m ρ p c).share_full hq) (fun b => W c b) (hA c)
    rw [Pipeline.unscopedBufs_held] at hsplit
    rw [Pipeline.ownSems0_none]
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp] <;> iassumption
  hin c := by
    rw [(plain m ρ p c).2.2.2]; unfold Pipeline.ΦA
    iintro ⟨Hp, -, Hr⟩
    isplitl [Hr] <;> iassumption
  hout c := by
    rw [Pipeline.ownSems0_none, (plain m ρ p c).2.2.2]; unfold Pipeline.ΦA
    iintro ⟨Hr, Hp⟩
    isplitl [Hp]; · iexact Hp
    isplitr; · iempintro
    iexact Hr
  hexit c := by
    obtain ⟨hq, ho, -, -⟩ := plain m ρ p c
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full hq)
      (fun b => W c b) (fun b => W' c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    unfold Pipeline.Dat.owesAt Pipeline.owesWithin; rw [ho]
    iintro ⟨Ha, ⟨%W, -, HO⟩, HY, Hrest⟩
    imodintro
    isplitl [Ha Hrest]
    · iapply hjoin; isplitl [Ha] <;> iassumption
    isplitl [HY]; · iexact HY
    iexists W; iexact HO

abbrev segs : List (Pipeline.Seg (pcfgs (F := F)) adm (pdats m ρ) () defs₀ 𝒱₀ L lv) :=
  [ .host (hseg main_part0_ops0 main_part0_ops0_sub (W0 m ρ)),
    .host (hseg main_part1_ops0 main_part1_ops0_sub (W1 m ρ)),
    .host (hseg main_part2_ops0 main_part2_ops0_sub (W2 m ρ)),
    .region (reg m ρ 0 launch0 (W3 m ρ) (W4 m ρ) (body_obligation0 (V3 m ρ)) (fun _ _ => rfl) (W4_arr m ρ) (W4_of_ne m ρ)),
    .region (reg m ρ 1 launch1 (W4 m ρ) (W5 m ρ) (body_obligation1 (V4 m ρ)) (fun _ _ => rfl) (W5_arr m ρ) (W5_of_ne m ρ)),
    .host (hseg main_part2_ops1 main_part2_ops1_sub (W5 m ρ)),
    .region (reg m ρ 2 launch2 (W6 m ρ) (W7 m ρ) (body_obligation2 (V6 m ρ)) (fun _ _ => rfl) (W7_arr m ρ) (W7_of_ne m ρ)),
    .region (reg m ρ 3 launch3 (W7 m ρ) (W8 m ρ) (body_obligation3 (V7 m ρ)) (fun _ _ => rfl) (W8_arr m ρ) (W8_of_ne m ρ)) ]
theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact Laws.sep_emp.mpr.trans fupd_intro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Kernel.Hand

end
-- ==== Proof.K.Args.lean ====
import proofs.«172980_j39402029973982_1_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

-- An operation whose one result is in a list of references writes inside that list.
theorem writes_sub_of_mem {Wl : List (Ref sig .tc)} {op : HloOp τ sig (Elt F)} {y : Ref sig .tc}
    (hw : op.writes = {Proc.devRef .tc y}) (hy : y ∈ Wl) : op.writes ⊆ (Wl.map (Proc.devRef (τ := τ) .tc)).toFinset := by
  rw [hw, Finset.singleton_subset_iff, List.mem_toFinset]; exact List.mem_map_of_mem hy

abbrev ops0_W : List (Ref sig .tc) := [main_v0, main_c, main_v1, main_v2, main_c_0, main_v3, main_v4, main_v5, main_v6, main_v7, main_v8, main_v9, main_cst, main_v10, main_v11, main_v12, main_v13, main_c_1, main_v14, main_v15, main_c_2, main_v16, main_v17, main_v18, main_v19, main_v20, main_v21, main_v22, main_cst_3, main_v23, main_v24, main_v25, main_v26, main_c_4, main_v27, main_v28, main_c_5, main_v29, main_v30, main_v31, main_v32, main_v33, main_v34, main_v35, main_cst_6, main_v36, main_v37, main_v38, main_v39, main_c_7, main_v40, main_v41, main_c_8, main_v42, main_v43, main_v44, main_v45, main_v46, main_v47, main_v48]
abbrev ops1_W : List (Ref sig .tc) := [main_cst_9, main_v49, main_v50, main_v51, main_v52, main_c_10, main_v53, main_v54, main_c_11, main_v55, main_v56, main_v57, main_v58, main_v59, main_v60, main_v61, main_cst_12, main_v62, main_v63, main_v64, main_v65, main_c_13, main_v66, main_v67, main_c_14, main_v68, main_v69, main_v70, main_v71, main_v72, main_v73, main_v74, main_cst_15, main_v75, main_v76, main_v77, main_v78, main_c_16, main_v79, main_v80, main_c_17, main_v81, main_v82, main_v83, main_v84, main_v85, main_v86, main_v87, main_cst_18, main_v88, main_v89, main_v90, main_v91, main_c_19, main_v92, main_v93, main_c_20, main_v94, main_v95, main_v96]
abbrev ops2_W : List (Ref sig .tc) := [main_v97, main_v98, main_v99, main_v100, main_cst_21, main_v101, main_v102, main_v103, main_v104, main_v105, main_v106, main_v107, main_v108, main_v109, main_v110, main_v111, main_v112, main_v113]
abbrev ops3_W : List (Ref sig .tc) := [main_v116, main_cst_22, main_v117, main_v118, main_cst_23, main_v119, main_v120, main_v121, main_v122, main_cst_24, main_v123, main_v124, main_cst_25, main_v125, main_v126, main_v127]

theorem main_part0_ops0_writes : (main_part0_ops0 : List (HloOp τ sig (Elt F))).Forall fun op => op.writes ⊆ (ops0_W.map (Proc.devRef (τ := τ) .tc)).toFinset := by
  simp only [List.Forall]; and_intros <;> exact writes_sub_of_mem rfl (by decide)
theorem main_part1_ops0_writes : (main_part1_ops0 : List (HloOp τ sig (Elt F))).Forall fun op => op.writes ⊆ (ops1_W.map (Proc.devRef (τ := τ) .tc)).toFinset := by
  simp only [List.Forall]; and_intros <;> exact writes_sub_of_mem rfl (by decide)
theorem main_part2_ops0_writes : (main_part2_ops0 : List (HloOp τ sig (Elt F))).Forall fun op => op.writes ⊆ (ops2_W.map (Proc.devRef (τ := τ) .tc)).toFinset := by
  simp only [List.Forall]; and_intros <;> exact writes_sub_of_mem rfl (by decide)
theorem main_part2_ops1_writes : (main_part2_ops1 : List (HloOp τ sig (Elt F))).Forall fun op => op.writes ⊆ (ops3_W.map (Proc.devRef (τ := τ) .tc)).toFinset := by
  simp only [List.Forall]; and_intros <;> exact writes_sub_of_mem rfl (by decide)

section
variable (c : Dev nD) (r : Ref sig .tc)

-- A reference a stretch does not write keeps its contents across it.
theorem W1_of (h : r ∉ ops0_W) : W1 m ρ c (Proc.devRef .tc r) = W0 m ρ c (Proc.devRef .tc r) :=
  StableHlo.after_of_writes_sub main_part0_ops0 _ main_part0_ops0_writes h
theorem W2_of (h : r ∉ ops1_W) : W2 m ρ c (Proc.devRef .tc r) = W1 m ρ c (Proc.devRef .tc r) :=
  StableHlo.after_of_writes_sub main_part1_ops0 _ main_part1_ops0_writes h
theorem W3_of (h : r ∉ ops2_W) : W3 m ρ c (Proc.devRef .tc r) = W2 m ρ c (Proc.devRef .tc r) :=
  StableHlo.after_of_writes_sub main_part2_ops0 _ main_part2_ops0_writes h
theorem W6_of (h : r ∉ ops3_W) : W6 m ρ c (Proc.devRef .tc r) = W5 m ρ c (Proc.devRef .tc r) :=
  StableHlo.after_of_writes_sub main_part2_ops1 _ main_part2_ops1_writes h

-- Not written by the three stretches before the first region: as launched.
theorem W3_eq_W0 (h : r ∉ ops0_W ∧ r ∉ ops1_W ∧ r ∉ ops2_W) : W3 m ρ c (Proc.devRef .tc r) = m ((c : Thread nD τ).loc r) :=
  (W3_of m ρ c r h.2.2).trans ((W2_of m ρ c r h.2.1).trans (W1_of m ρ c r h.1))
-- No array of regions 0 and 1: as at region 0's entry.
theorem W5_eq_W3 (h : (∀ w, Pipeline.arrRef spec0 w ≠ r) ∧ ∀ w, Pipeline.arrRef spec1 w ≠ r) :
    W5 m ρ c (Proc.devRef .tc r) = W3 m ρ c (Proc.devRef .tc r) :=
  (W5_of_ne m ρ c r h.2).trans (W4_of_ne m ρ c r h.1)
-- Not written by the last stretch and no array of regions 2 and 3: as at region 1's exit.
theorem W8_eq_W5 (h : r ∉ ops3_W ∧ (∀ w, Pipeline.arrRef spec2 w ≠ r) ∧ ∀ w, Pipeline.arrRef spec3 w ≠ r) :
    W8 m ρ c (Proc.devRef .tc r) = W5 m ρ c (Proc.devRef .tc r) :=
  (W8_of_ne m ρ c r h.2.2).trans ((W7_of_ne m ρ c r h.2.1).trans (W6_of m ρ c r h.1))

-- A reference no stretch writes and no region has among its arrays ends as launched.
abbrev Kept : Prop := (r ∉ ops0_W ∧ r ∉ ops1_W ∧ r ∉ ops2_W) ∧ ((∀ w, Pipeline.arrRef spec0 w ≠ r) ∧ ∀ w, Pipeline.arrRef spec1 w ≠ r)
  ∧ r ∉ ops3_W ∧ (∀ w, Pipeline.arrRef spec2 w ≠ r) ∧ ∀ w, Pipeline.arrRef spec3 w ≠ r
theorem W8_kept (h : Kept r) : W8 m ρ c (Proc.devRef .tc r) = m ((c : Thread nD τ).loc r) :=
  (W8_eq_W5 m ρ c r h.2.2).trans ((W5_eq_W3 m ρ c r h.2.1).trans (W3_eq_W0 m ρ c r h.1))

end

-- The two weight matrices are read by a region (an input window): they pass through it unchanged.
theorem W4_in (c : Dev nD) (w : Fin cfg0.W) (h : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w h _).trans (A_eq0 (V3 m ρ) c w))
theorem W5_in (c : Dev nD) (w : Fin cfg1.W) (h : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w h _).trans (A_eq1 (V4 m ρ) c w))

section
variable (c : Dev nD)

theorem W8_main_arg8 : W8 m ρ c (Proc.devRef .tc main_arg8) = m ((c : Thread nD τ).loc main_arg8) :=
  (W8_eq_W5 m ρ c main_arg8 (by decide)).trans ((W5_of_ne m ρ c main_arg8 (by decide)).trans ((W4_in m ρ c 1 rfl).trans (W3_eq_W0 m ρ c main_arg8 (by decide))))
theorem W8_main_arg9 : W8 m ρ c (Proc.devRef .tc main_arg9) = m ((c : Thread nD τ).loc main_arg9) :=
  (W8_eq_W5 m ρ c main_arg9 (by decide)).trans ((W5_in m ρ c 1 rfl).trans ((W4_of_ne m ρ c main_arg9 (by decide)).trans (W3_eq_W0 m ρ c main_arg9 (by decide))))

-- Each region's outputs, read at the end, are what its pipeline left.
theorem W8_main_v114_0 : W8 m ρ c (Proc.devRef .tc main_v114_0) = (dat0 (V3 m ρ) c).arrAt 2 cfg0.N :=
  (W8_eq_W5 m ρ c main_v114_0 (by decide)).trans ((W5_of_ne m ρ c main_v114_0 (by decide)).trans (W4_arr m ρ c 2))
theorem W8_main_v115_0 : W8 m ρ c (Proc.devRef .tc main_v115_0) = (dat1 (V4 m ρ) c).arrAt 2 cfg1.N :=
  (W8_eq_W5 m ρ c main_v115_0 (by decide)).trans (W5_arr m ρ c 2)
theorem W8_main_v128 : W8 m ρ c (Proc.devRef .tc main_v128) = (dat2 (V6 m ρ) c).arrAt 2 cfg2.N :=
  (W8_of_ne m ρ c main_v128 (by decide)).trans (W7_arr m ρ c 2)
theorem W5_main_v114_1 : W5 m ρ c (Proc.devRef .tc main_v114_1) = (dat0 (V3 m ρ) c).arrAt 3 cfg0.N :=
  (W5_of_ne m ρ c main_v114_1 (by decide)).trans (W4_arr m ρ c 3)

-- Each stack as the later regions find it is the stack at region 0's entry.
theorem V6_main_v108 : V6 m ρ c main_v108 = V3 m ρ c main_v108 :=
  (W6_of m ρ c main_v108 (by decide)).trans ((W5_of_ne m ρ c main_v108 (by decide)).trans (W4_in m ρ c 0 rfl))
theorem V7_main_v113 : V7 m ρ c main_v113 = V3 m ρ c main_v113 :=
  (W7_of_ne m ρ c main_v113 (by decide)).trans ((W6_of m ρ c main_v113 (by decide)).trans ((W5_in m ρ c 0 rfl).trans (W4_of_ne m ρ c main_v113 (by decide))))

end

end Cert.Kernel.Hand

end
-- ==== Proof.K.Frame.lean ====
import proofs.«172980_j39402029973982_1_alg».proof.Defs
import proofs.«172980_j39402029973982_1_alg».proof.Proof.Gen.Kernel
import proofs.«172980_j39402029973982_1_alg».proof.Proof.Gen.Pre_finite_inputs
import proofs.«172980_j39402029973982_1_alg».proof.Proof.K.Run
import proofs.«172980_j39402029973982_1_alg».proof.Proof.K.Args

noncomputable section

namespace Cert.Kernel.Hand

open Cert.Kernel Cert.Kernel.Gen
open Idealize.ShloMosaic Idealize.ShloMosaic.TcCoe Idealize.SL.Sem

-- The run ends with every unscoped buffer at the last boundary's contents, and there each argument is as launched.
theorem frame : Cert.frame_Kernel (hKernel := Gen.facts) (hPre_finite_inputs := Cert.Pre_finite_inputs.Gen.facts) := fun m ρ _ =>
  (θ_run defs _ _).mono (fun r h c => by
    and_intros <;> first
      | exact (h c _ (mem_uc _ (by decide))).trans (W8_kept m ρ c _ (by decide))
      | exact (h c _ (mem_uc _ (by decide))).trans (W8_main_arg8 m ρ c)
      | exact (h c _ (mem_uc _ (by decide))).trans (W8_main_arg9 m ρ c)) (run_all m ρ)

end Cert.Kernel.Hand

end
-- ==== Proof.KI.R0Base.lean ====
import proofs.«172980_j39402029973982_1_alg».proof.Proof.Gen.KernelIdeal.Launch
import proofs.«172980_j39402029973982_1_alg».proof.Proof.Gen.KernelIdeal.Skeleton
import proofs.«172980_j39402029973982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Gen Idealize.ShloMosaic Idealize.ShloMosaic.TcCoe Idealize.SL Idealize.SL.RA Idealize.SL.BI Idealize.SL.BI.BIBase Idealize.SL.Sem
open scoped Idealize.SL.BI

variable {F : FTy → Type} [FloatOps F]

/-- The condition under which the body resets the accumulator, as it computes it from the grid coordinate. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val = 0 :=
  (by decide +kernel : ∀ t : Fin grid0.N, cond0_0 (grid0.coords t) ↔ t.val = 0)

abbrev hs0_0 (t : Fin cfg0.N) : (win0_0.stage (cfg0.slots t 0) : Memref sig .tc .vmem S4x5000x64 .f32).IsWhole := hstage0_0 ((cfg0.slots t 0).cast nbuf0_0)
abbrev hs0_1 (t : Fin cfg0.N) : (win0_1.stage (cfg0.slots t 1) : Memref sig .tc .vmem S64x64 .f32).IsWhole := hstage0_1 ((cfg0.slots t 1).cast nbuf0_1)
abbrev hs0_2 (t : Fin cfg0.N) : (win0_2.stage (cfg0.slots t 2) : Memref sig .tc .vmem S5000x64 .f32).IsWhole := hstage0_2 ((cfg0.slots t 2).cast nbuf0_2)
abbrev hs0_3 (t : Fin cfg0.N) : (win0_3.stage (cfg0.slots t 3) : Memref sig .tc .vmem S4x64 .f32).IsWhole := hstage0_3 ((cfg0.slots t 3).cast nbuf0_3)

/-- Core `c` holds all of the whole memref `m` at contents `x`. -/
abbrev hs0_own (c : Dev nD) {S : Shape} {m : Memref sig .tc .vmem S .f32} (_ : m.IsWhole) (x : Vec F S .f32) : sProp (MT nD τ sig Unit (Elt F) ℕ (UR sig nD τ) ℕ) :=
  owns (c : Thread nD τ) m fullShare x

/-- Window `w`'s block at grid point `t`, read off its array as the region finds it. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The body's triple: from the inputs at `x0`, `x1`, the row output at anything and the accumulator as `P` says, to the inputs unchanged and the outputs at `o`. -/
def kernelRun0_spec (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32) (P : sProp (MT nD τ sig Unit (Elt F) ℕ (UR sig nD τ) ℕ)) (o : Vec F S5000x64 .f32 × Vec F S4x64 .f32) : Prop :=
  ∀ (E : Set ℕ) (K : PUnit → sProp _),
    iprop(hs0_own c harg1 x0 ∗ hs0_own c harg2 x1 ∗ (∃ d, hs0_own c harg3 d) ∗ P
        ∗ (iprop(hs0_own c harg1 x0 ∗ hs0_own c harg2 x1 ∗ hs0_own c harg3 o.1 ∗ hs0_own c harg4 o.2) -∗ K ⟨⟩))
      ⊢ wp frame (wpE (defs₀ (F := F)) Variants.none c none) E (cc0__fused_kernel i arg1 harg1 arg2 harg2 arg3 harg3 arg4 harg4) K

end Cert.KernelIdeal.Hand

end
-- ==== Proof.KI.R0A.lean ====
import proofs.«172980_j39402029973982_1_alg».proof.Proof.KI.R0Base

noncomputable section

namespace Cert.KernelIdeal.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32)

set_option maxHeartbeats 1000000 in
/-- The first point's run (the accumulator reset, then added to); the witness is what its stores leave. -/
def kernelRun0_A (hc0 : cond0_0 i) :
    { o // kernelRun0_spec c i harg1 harg2 harg3 harg4 x0 x1 iprop(∃ d, hs0_own c harg4 d) o } := by
  refine ⟨(?_, ?_), fun E K => ?run⟩
  case run =>
    simp only [cc0__fused_kernel_eq_skeleton]; unfold cc0__fused_kernel_skel
    unfold hs0_own owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S5000x64.size (by sl_kernel_rfl))
    iexists _; isplitr; swap; · iexact H3
    ipureintro; exact View.read_writes_eq_canon (Val := Elt F) _ _ _ (View.cover_of_tiledL _ S4x64.size (by sl_kernel_rfl))

end Cert.KernelIdeal.Hand

end
-- ==== Proof.KI.R0B.lean ====
import proofs.«172980_j39402029973982_1_alg».proof.Proof.KI.R0A

noncomputable section

namespace Cert.KernelIdeal.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid0.Coords) {arg1 : Memref sig .tc .vmem S4x5000x64 .f32} (harg1 : arg1.IsWhole) {arg2 : Memref sig .tc .vmem S64x64 .f32} (harg2 : arg2.IsWhole) {arg3 : Memref sig .tc .vmem S5000x64 .f32} (harg3 : arg3.IsWhole) {arg4 : Memref sig .tc .vmem S4x64 .f32} (harg4 : arg4.IsWhole) (x0 : Vec F S4x5000x64 .f32) (x1 : Vec F S64x64 .f32)

set_option maxHeartbeats 1000000 in
/-- A later point's run (the accumulator at `xo3` added to); the witness is what its stores leave. -/
def kernelRun0_B (hc0 : ¬cond0_0 i) (xo3 : Vec F S4x64 .f32) :
    { o // kernelRun0_spec c i harg1 harg2 harg3 harg4 x0 x1 (hs0_own c harg4 xo3) o } := by
  refine ⟨(?_, ?_), fun E K => ?run⟩
  case run =>
    simp only [cc0__fused_kernel_eq_skeleton]; unfold cc0__fused_kernel_skel
    unfold hs0_own owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S5000x64.size (by sl_kernel_rfl))
    iexists _; isplitr; swap; · iexact H3
    ipureintro; exact View.read_writes_eq_canon (Val := Elt F) _ _ _ (View.cover_of_tiledL _ S4x64.size (by sl_kernel_rfl))

end Cert.KernelIdeal.Hand

end
-- ==== Proof.KI.R0.lean ====
import proofs.«172980_j39402029973982_1_alg».proof.Proof.KI.R0B

noncomputable section

namespace Cert.KernelIdeal.Hand

open Gen Idealize.ShloMosaic Idealize.ShloMosaic.TcCoe Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

/-- Each case's run at point `t`, on that point's memrefs and input blocks. -/
abbrev kernelRun0_A_at (t : Fin cfg0.N) (h0 : t.val = 0) :=
  kernelRun0_A c (grid0.coords t) (hs0_0 t) (hs0_1 t) (hs0_2 t) (hs0_3 t) (iblk0 V c 0 t) (iblk0 V c 1 t) ((hcond0_0 t).mpr h0)
abbrev kernelRun0_B_at (t : Fin cfg0.N) (h0 : t.val ≠ 0) :=
  kernelRun0_B c (grid0.coords t) (hs0_0 t) (hs0_1 t) (hs0_2 t) (hs0_3 t) (iblk0 V c 0 t) (iblk0 V c 1 t) (mt (hcond0_0 t).mp h0)

/-- What the body leaves in the two outputs at point `n`: the first case at 0, the later case after, its accumulator what point `n - 1` left. -/
def outsAt0 : (n : ℕ) → n < cfg0.N → Vec F S5000x64 .f32 × Vec F S4x64 .f32
  | 0, hn => (kernelRun0_A_at V c ⟨0, hn⟩ rfl).1
  | n + 1, hn => (kernelRun0_B_at V c ⟨n + 1, hn⟩ n.succ_ne_zero (outsAt0 n (Nat.lt_of_succ_lt hn)).2).1

/-- The region's proof data: the arrays as the region finds them; after the body each input at its block, the outputs at `outsAt0`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (w : Fin cfg0.W) : (dat0 V c).A w = V c (Pipeline.arrRef spec0 w) := rfl

/-- At every point the body finds each input at its block: it leaves the inputs as they are. -/
theorem before0_0 (t : Fin cfg0.N) (d) : (dat0 V c).before 0 t d = iblk0 V c 0 t :=
  (Dat.before_in_eq_fetched _ 0 rfl (fun _ => rfl) (fun _ _ _ => rfl) (fun _ => rfl) t d).trans rfl
theorem before0_1 (t : Fin cfg0.N) (d) : (dat0 V c).before 1 t d = iblk0 V c 1 t :=
  (Dat.before_in_eq_fetched _ 1 rfl (fun _ => rfl) (fun _ _ _ => rfl) (fun _ => rfl) t d).trans rfl

/-- After the first point the body finds the accumulator as the point before left it. -/
theorem before0_3_succ (n : ℕ) (hn : n + 1 < cfg0.N) (d) : (dat0 V c).before 3 ⟨n + 1, hn⟩ d = (outsAt0 V c n (Nat.lt_of_succ_lt hn)).2 :=
  Dat.before_out_kept _ 3 rfl ⟨n + 1, hn⟩ n.succ_ne_zero
    (Bool.eq_false_iff.mpr fun h => by have := (flush0_3 _).mp h; have : n + 1 < 30 := lt_of_lt_of_eq hn N_0; dsimp only at *; omega)
    (fun _ => rfl) (fun _ _ => rfl) d

/-- The body at any point: the case the point is in runs from what it finds and leaves what the proof data says; `R1`, `R2` pass through. -/
theorem sound_body0 (t : Fin cfg0.N) (R1 R2 : sProp (MT nD τ sig Unit (Elt F) ℕ (UR sig nD τ) ℕ)) :
    iprop(R1 ∗ R2 ∗ (∃ d, hs0_own c (hs0_0 t) ((dat0 V c).before 0 t d)) ∗ (∃ d, hs0_own c (hs0_1 t) ((dat0 V c).before 1 t d))
        ∗ (∃ d, hs0_own c (hs0_2 t) ((dat0 V c).before 2 t d)) ∗ (∃ d, hs0_own c (hs0_3 t) ((dat0 V c).before 3 t d)))
      ⊢ wp frame (wpE (defs₀ (F := F)) Variants.none c none) Set.univ (bodyAt0 t) fun _ =>
        iprop(R1 ∗ R2 ∗ hs0_own c (hs0_0 t) (iblk0 V c 0 t) ∗ hs0_own c (hs0_1 t) (iblk0 V c 1 t)
          ∗ hs0_own c (hs0_2 t) (outsAt0 V c t.val t.isLt).1 ∗ hs0_own c (hs0_3 t) (outsAt0 V c t.val t.isLt).2) := by
  obtain ⟨P, hP, hrun⟩ : ∃ P, (iprop(∃ d, hs0_own c (hs0_3 t) ((dat0 V c).before 3 t d)) ⊢ P) ∧
      kernelRun0_spec c (grid0.coords t) (hs0_0 t) (hs0_1 t) (hs0_2 t) (hs0_3 t) (iblk0 V c 0 t) (iblk0 V c 1 t) P (outsAt0 V c t.val t.isLt) := by
    obtain ⟨_ | n, hn⟩ := t <;> dsimp only <;> rw [outsAt0]
    · have h := (kernelRun0_A_at V c ⟨0, hn⟩ rfl).2
      exact ⟨_, by iintro ⟨%d, H⟩; iexists _; iexact H, h⟩
    · have h := (kernelRun0_B_at V c ⟨n + 1, hn⟩ n.succ_ne_zero (outsAt0 V c n (Nat.lt_of_succ_lt hn)).2).2
      exact ⟨_, by simp only [before0_3_succ]; iintro ⟨%d, H⟩; iexact H, h⟩
  simp only [before0_0, before0_1]
  iintro ⟨HΦ, Ho, ⟨%d0, H0⟩, ⟨%d1, H1⟩, ⟨%d2, H2⟩, H3⟩
  iapply hrun Set.univ _
  isplitl [H0]; · iexact H0
  isplitl [H1]; · iexact H1
  isplitl [H2]; · iexists _; iexact H2
  isplitl [H3]; · iapply hP; iexact H3
  iintro H
  isplitl [HΦ]; · iexact HΦ
  isplitl [Ho]; · iexact Ho
  iexact H

/-- The library's body obligation, at every point. -/
theorem body_obligation0 : BodyObligation (dat0 (F := F) V c) (defs₀ (F := F)) Variants.none () Set.univ := fun t => by
  rw [bigSep_W0, bigSep_W0]
  exact sound_body0 V c t _ _

end Cert.KernelIdeal.Hand

end
-- ==== Proof.KI.R1Base.lean ====
import proofs.«172980_j39402029973982_1_alg».proof.Proof.Gen.KernelIdeal.Launch
import proofs.«172980_j39402029973982_1_alg».proof.Proof.Gen.KernelIdeal.Skeleton
import proofs.«172980_j39402029973982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Gen Idealize.ShloMosaic Idealize.ShloMosaic.TcCoe Idealize.SL Idealize.SL.RA Idealize.SL.BI Idealize.SL.BI.BIBase Idealize.SL.Sem
open scoped Idealize.SL.BI

variable {F : FTy → Type} [FloatOps F]

/-- The condition under which the body resets the accumulator, as it computes it from the grid coordinate. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val = 0 :=
  (by decide +kernel : ∀ t : Fin grid1.N, cond1_0 (grid1.coords t) ↔ t.val = 0)

abbrev hs1_0 (t : Fin cfg1.N) : (win1_0.stage (cfg1.slots t 0) : Memref sig .tc .vmem S4x2000x64 .f32).IsWhole := hstage1_0 ((cfg1.slots t 0).cast nbuf1_0)
abbrev hs1_1 (t : Fin cfg1.N) : (win1_1.stage (cfg1.slots t 1) : Memref sig .tc .vmem S64x64 .f32).IsWhole := hstage1_1 ((cfg1.slots t 1).cast nbuf1_1)
abbrev hs1_2 (t : Fin cfg1.N) : (win1_2.stage (cfg1.slots t 2) : Memref sig .tc .vmem S2000x64 .f32).IsWhole := hstage1_2 ((cfg1.slots t 2).cast nbuf1_2)
abbrev hs1_3 (t : Fin cfg1.N) : (win1_3.stage (cfg1.slots t 3) : Memref sig .tc .vmem S4x64 .f32).IsWhole := hstage1_3 ((cfg1.slots t 3).cast nbuf1_3)

/-- Core `c` holds all of the whole memref `m` at contents `x`. -/
abbrev hs1_own (c : Dev nD) {S : Shape} {m : Memref sig .tc .vmem S .f32} (_ : m.IsWhole) (x : Vec F S .f32) : sProp (MT nD τ sig Unit (Elt F) ℕ (UR sig nD τ) ℕ) :=
  owns (c : Thread nD τ) m fullShare x

/-- Window `w`'s block at grid point `t`, read off its array as the region finds it. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's triple: from the inputs at `x0`, `x1`, the row output at anything and the accumulator as `P` says, to the inputs unchanged and the outputs at `o`. -/
def kernelRun1_spec (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32) (P : sProp (MT nD τ sig Unit (Elt F) ℕ (UR sig nD τ) ℕ)) (o : Vec F S2000x64 .f32 × Vec F S4x64 .f32) : Prop :=
  ∀ (E : Set ℕ) (K : PUnit → sProp _),
    iprop(hs1_own c harg1 x0 ∗ hs1_own c harg2 x1 ∗ (∃ d, hs1_own c harg3 d) ∗ P
        ∗ (iprop(hs1_own c harg1 x0 ∗ hs1_own c harg2 x1 ∗ hs1_own c harg3 o.1 ∗ hs1_own c harg4 o.2) -∗ K ⟨⟩))
      ⊢ wp frame (wpE (defs₀ (F := F)) Variants.none c none) E (cc1__fused_kernel i arg1 harg1 arg2 harg2 arg3 harg3 arg4 harg4) K

end Cert.KernelIdeal.Hand

end
-- ==== Proof.KI.R1A.lean ====
import proofs.«172980_j39402029973982_1_alg».proof.Proof.KI.R1Base

noncomputable section

namespace Cert.KernelIdeal.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32)

set_option maxHeartbeats 1000000 in
/-- The first point's run (the accumulator reset, then added to); the witness is what its stores leave. -/
def kernelRun1_A (hc0 : cond1_0 i) :
    { o // kernelRun1_spec c i harg1 harg2 harg3 harg4 x0 x1 iprop(∃ d, hs1_own c harg4 d) o } := by
  refine ⟨(?_, ?_), fun E K => ?run⟩
  case run =>
    simp only [cc1__fused_kernel_eq_skeleton]; unfold cc1__fused_kernel_skel
    unfold hs1_own owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S2000x64.size (by sl_kernel_rfl))
    iexists _; isplitr; swap; · iexact H3
    ipureintro; exact View.read_writes_eq_canon (Val := Elt F) _ _ _ (View.cover_of_tiledL _ S4x64.size (by sl_kernel_rfl))

end Cert.KernelIdeal.Hand

end
-- ==== Proof.KI.R1B.lean ====
import proofs.«172980_j39402029973982_1_alg».proof.Proof.KI.R1A

noncomputable section

namespace Cert.KernelIdeal.Hand

open Gen Idealize.ShloMosaic Idealize.ShloMosaic.TcCoe Idealize.SL Idealize.SL.RA Idealize.SL.BI Idealize.SL.BI.BIBase Idealize.SL.ProofMode
open scoped Idealize.SL.BI

variable {F : FTy → Type} [FloatOps F]

variable (c : Dev nD) (i : grid1.Coords) {arg1 : Memref sig .tc .vmem S4x2000x64 .f32} (harg1 : arg1.IsWhole) {arg2 : Memref sig .tc .vmem S64x64 .f32} (harg2 : arg2.IsWhole) {arg3 : Memref sig .tc .vmem S2000x64 .f32} (harg3 : arg3.IsWhole) {arg4 : Memref sig .tc .vmem S4x64 .f32} (harg4 : arg4.IsWhole) (x0 : Vec F S4x2000x64 .f32) (x1 : Vec F S64x64 .f32)

set_option maxHeartbeats 1000000 in
/-- A later point's run (the accumulator at `xo3` added to); the witness is what its stores leave. -/
def kernelRun1_B (hc0 : ¬cond1_0 i) (xo3 : Vec F S4x64 .f32) :
    { o // kernelRun1_spec c i harg1 harg2 harg3 harg4 x0 x1 (hs1_own c harg4 xo3) o } := by
  refine ⟨(?_, ?_), fun E K => ?run⟩
  case run =>
    simp only [cc1__fused_kernel_eq_skeleton]; unfold cc1__fused_kernel_skel
    unfold hs1_own owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact View.read_writes_eq_canon (Val := Elt F) _ _ _ (View.cover_of_tiledL _ S2000x64.size (by sl_kernel_rfl))
    iexists _; isplitr; swap; · iexact H3
    ipureintro; exact View.read_writes_eq_canon (Val := Elt F) _ _ _ (View.cover_of_tiledL _ S4x64.size (by sl_kernel_rfl))

end Cert.KernelIdeal.Hand

end
-- ==== Proof.KI.R1.lean ====
import proofs.«172980_j39402029973982_1_alg».proof.Proof.KI.R1B

noncomputable section

namespace Cert.KernelIdeal.Hand

open Gen Idealize.ShloMosaic Idealize.ShloMosaic.TcCoe Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b)) (c : Dev nD)

/-- Each case's run at point `t`, on that point's memrefs and input blocks. -/
abbrev kernelRun1_A_at (t : Fin cfg1.N) (h0 : t.val = 0) :=
  kernelRun1_A c (grid1.coords t) (hs1_0 t) (hs1_1 t) (hs1_2 t) (hs1_3 t) (iblk1 V c 0 t) (iblk1 V c 1 t) ((hcond1_0 t).mpr h0)
abbrev kernelRun1_B_at (t : Fin cfg1.N) (h0 : t.val ≠ 0) :=
  kernelRun1_B c (grid1.coords t) (hs1_0 t) (hs1_1 t) (hs1_2 t) (hs1_3 t) (iblk1 V c 0 t) (iblk1 V c 1 t) (mt (hcond1_0 t).mp h0)

/-- What the body leaves in the two outputs at point `n`: the first case at 0, the later case after, its accumulator what point `n - 1` left. -/
def outsAt1 : (n : ℕ) → n < cfg1.N → Vec F S2000x64 .f32 × Vec F S4x64 .f32
  | 0, hn => (kernelRun1_A_at V c ⟨0, hn⟩ rfl).1
  | n + 1, hn => (kernelRun1_B_at V c ⟨n + 1, hn⟩ n.succ_ne_zero (outsAt1 n (Nat.lt_of_succ_lt hn)).2).1

/-- The region's proof data: the arrays as the region finds them; after the body each input at its block, the outputs at `outsAt1`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (w : Fin cfg1.W) : (dat1 V c).A w = V c (Pipeline.arrRef spec1 w) := rfl

/-- At every point the body finds each input at its block: it leaves the inputs as they are. -/
theorem before1_0 (t : Fin cfg1.N) (d) : (dat1 V c).before 0 t d = iblk1 V c 0 t :=
  (Dat.before_in_eq_fetched _ 0 rfl (fun _ => rfl) (fun _ _ _ => rfl) (fun _ => rfl) t d).trans rfl
theorem before1_1 (t : Fin cfg1.N) (d) : (dat1 V c).before 1 t d = iblk1 V c 1 t :=
  (Dat.before_in_eq_fetched _ 1 rfl (fun _ => rfl) (fun _ _ _ => rfl) (fun _ => rfl) t d).trans rfl

/-- After the first point the body finds the accumulator as the point before left it. -/
theorem before1_3_succ (n : ℕ) (hn : n + 1 < cfg1.N) (d) : (dat1 V c).before 3 ⟨n + 1, hn⟩ d = (outsAt1 V c n (Nat.lt_of_succ_lt hn)).2 :=
  Dat.before_out_kept _ 3 rfl ⟨n + 1, hn⟩ n.succ_ne_zero
    (Bool.eq_false_iff.mpr fun h => by have := (flush1_3 _).mp h; have : n + 1 < 40 := lt_of_lt_of_eq hn N_1; dsimp only at *; omega)
    (fun _ => rfl) (fun _ _ => rfl) d

/-- The body at any point: the case the point is in runs from what it finds and leaves what the proof data says; `R1`, `R2` pass through. -/
theorem sound_body1 (t : Fin cfg1.N) (R1 R2 : sProp (MT nD τ sig Unit (Elt F) ℕ (UR sig nD τ) ℕ)) :
    iprop(R1 ∗ R2 ∗ (∃ d, hs1_own c (hs1_0 t) ((dat1 V c).before 0 t d)) ∗ (∃ d, hs1_own c (hs1_1 t) ((dat1 V c).before 1 t d))
        ∗ (∃ d, hs1_own c (hs1_2 t) ((dat1 V c).before 2 t d)) ∗ (∃ d, hs1_own c (hs1_3 t) ((dat1 V c).before 3 t d)))
      ⊢ wp frame (wpE (defs₀ (F := F)) Variants.none c none) Set.univ (bodyAt1 t) fun _ =>
        iprop(R1 ∗ R2 ∗ hs1_own c (hs1_0 t) (iblk1 V c 0 t) ∗ hs1_own c (hs1_1 t) (iblk1 V c 1 t)
          ∗ hs1_own c (hs1_2 t) (outsAt1 V c t.val t.isLt).1 ∗ hs1_own c (hs1_3 t) (outsAt1 V c t.val t.isLt).2) := by
  obtain ⟨P, hP, hrun⟩ : ∃ P, (iprop(∃ d, hs1_own c (hs1_3 t) ((dat1 V c).before 3 t d)) ⊢ P) ∧
      kernelRun1_spec c (grid1.coords t) (hs1_0 t) (hs1_1 t) (hs1_2 t) (hs1_3 t) (iblk1 V c 0 t) (iblk1 V c 1 t) P (outsAt1 V c t.val t.isLt) := by
    obtain ⟨_ | n, hn⟩ := t <;> dsimp only <;> rw [outsAt1]
    · have h := (kernelRun1_A_at V c ⟨0, hn⟩ rfl).2
      exact ⟨_, by iintro ⟨%d, H⟩; iexists _; iexact H, h⟩
    · have h := (kernelRun1_B_at V c ⟨n + 1, hn⟩ n.succ_ne_zero (outsAt1 V c n (Nat.lt_of_succ_lt hn)).2).2
      exact ⟨_, by simp only [before1_3_succ]; iintro ⟨%d, H⟩; iexact H, h⟩
  simp only [before1_0, before1_1]
  iintro ⟨HΦ, Ho, ⟨%d0, H0⟩, ⟨%d1, H1⟩, ⟨%d2, H2⟩, H3⟩
  iapply hrun Set.univ _
  isplitl [H0]; · iexact H0
  isplitl [H1]; · iexact H1
  isplitl [H2]; · iexists _; iexact H2
  isplitl [H3]; · iapply hP; iexact H3
  iintro H
  isplitl [HΦ]; · iexact HΦ
  isplitl [Ho]; · iexact Ho
  iexact H

/-- The library's body obligation, at every point. -/
theorem body_obligation1 : BodyObligation (dat1 (F := F) V c) (defs₀ (F := F)) Variants.none () Set.univ := fun t => by
  rw [bigSep_W1, bigSep_W1]
  exact sound_body1 V c t _ _

end Cert.KernelIdeal.Hand

end
-- ==== Proof.KI.R2.lean ====
import proofs.«172980_j39402029973982_1_alg».proof.Proof.Gen.KernelIdeal.Launch
import proofs.«172980_j39402029973982_1_alg».proof.Proof.Gen.KernelIdeal.Skeleton
import proofs.«172980_j39402029973982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Idealize.ShloMosaic Idealize.ShloMosaic.TcCoe Idealize.SL.RA Idealize.SL.BI Idealize.SL.BI.BIBase Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4x5000x64 := Rect.unit ![0, 0, 0] S4x5000x64.size inb_S4x5000x64_S4x5000x64_0_0_0

def out2_2 (x0 : Vec F S4x5000x64 .f32) (x1 : Vec F S4x1x64 .f32) : Vec F S4x5000x64 .f32 :=
  View.canon [⟨r2_0, k2_pay1 (View.ld x0 r2_0) (View.ld x1 (Rect.unit ![0, 0, 0] S4x1x64.size inb_S4x1x64_S4x1x64_0_0_0))⟩]

set_option maxHeartbeats 1000000 in
-- The one store covers the whole output, so what the output held before drops out.
theorem sound_kernel2 {E : Set ℕ} {i : grid2.Coords} {arg1 arg3 : Memref sig .tc .vmem S4x5000x64 .f32} {arg2 : Memref sig .tc .vmem S4x1x64 .f32}
    {harg1 : arg1.IsWhole} {harg2 : arg2.IsWhole} {harg3 : arg3.IsWhole} {x0 d : Vec F S4x5000x64 .f32} {x1 : Vec F S4x1x64 .f32}
    {K : PUnit → sProp (MT nD τ sig Unit (Elt F) ℕ (UR sig nD τ) ℕ)} :
    iprop(owns c.tc arg1 fullShare x0 ∗ owns c.tc arg2 fullShare x1 ∗ owns c.tc arg3 fullShare d
        ∗ (owns c.tc arg1 fullShare x0 ∗ owns c.tc arg2 fullShare x1 ∗ owns c.tc arg3 fullShare (out2_2 x0 x1) -∗ K ⟨⟩))
      ⊢ wp frame (wpE defs₀ Variants.none c none) E (cc2__normalize_kernel i arg1 harg1 arg2 harg2 arg3 harg3) K := by
  unfold owns
  sl_unfold [cc2__normalize_kernel]
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4x5000x64.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = out2_2 ((dat2 V c).after 0 t) ((dat2 V c).after 1 t) := by dsimp only [dat2]

-- The body leaves its two inputs as it finds them.
theorem before2_in : ∀ (w : Fin cfg2.W) (_ : (cfg2.win w).isOut = false) (t : Fin cfg2.N) (d), (dat2 V c).before w t d = (dat2 V c).after w t
  | ⟨0, _⟩, _, t, d | ⟨1, _⟩, _, t, d =>
    ((dat2 V c).before_in_eq_fetched _ rfl (fun _ => rfl) (fun _ _ _ => rfl) (fun _ => rfl) t d).trans rfl
  | ⟨2, _⟩, h, _, _ => by cases h

theorem body_obligation2 : BodyObligation (dat2 V c) defs₀ Variants.none () Set.univ := fun t => by
  rw [bigSep_W2, bigSep_W2, after2_2]
  sl_whnfR [defs₀, Defs.onTc]
  simp only [before2_in V c 0 rfl, before2_in V c 1 rfl]
  iintro ⟨HΦ, Ho, ⟨%_, H0⟩, ⟨%_, H1⟩, ⟨%_, H2⟩⟩
  iapply sound_kernel2 c
  iframe H0 H1 H2
  iintro H
  icombine HΦ Ho H as G
  iexact G

end Cert.KernelIdeal.Hand

end
-- ==== Proof.KI.R3.lean ====
import proofs.«172980_j39402029973982_1_alg».proof.Proof.Gen.KernelIdeal.Launch
import proofs.«172980_j39402029973982_1_alg».proof.Proof.Gen.KernelIdeal.Skeleton
import proofs.«172980_j39402029973982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Idealize.ShloMosaic Idealize.ShloMosaic.TcCoe Idealize.SL.RA Idealize.SL.BI Idealize.SL.BI.BIBase Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4x2000x64 := Rect.unit ![0, 0, 0] S4x2000x64.size inb_S4x2000x64_S4x2000x64_0_0_0

def out3_2 (x0 : Vec F S4x2000x64 .f32) (x1 : Vec F S4x1x64 .f32) : Vec F S4x2000x64 .f32 :=
  View.canon [⟨r3_0, k3_pay1 (View.ld x0 r3_0) (View.ld x1 (Rect.unit ![0, 0, 0] S4x1x64.size inb_S4x1x64_S4x1x64_0_0_0))⟩]

set_option maxHeartbeats 1000000 in
-- The one store covers the whole output, so what the output held before drops out.
theorem sound_kernel3 {E : Set ℕ} {i : grid3.Coords} {arg1 arg3 : Memref sig .tc .vmem S4x2000x64 .f32} {arg2 : Memref sig .tc .vmem S4x1x64 .f32}
    {harg1 : arg1.IsWhole} {harg2 : arg2.IsWhole} {harg3 : arg3.IsWhole} {x0 d : Vec F S4x2000x64 .f32} {x1 : Vec F S4x1x64 .f32}
    {K : PUnit → sProp (MT nD τ sig Unit (Elt F) ℕ (UR sig nD τ) ℕ)} :
    iprop(owns c.tc arg1 fullShare x0 ∗ owns c.tc arg2 fullShare x1 ∗ owns c.tc arg3 fullShare d
        ∗ (owns c.tc arg1 fullShare x0 ∗ owns c.tc arg2 fullShare x1 ∗ owns c.tc arg3 fullShare (out3_2 x0 x1) -∗ K ⟨⟩))
      ⊢ wp frame (wpE defs₀ Variants.none c none) E (cc3__normalize_kernel i arg1 harg1 arg2 harg2 arg3 harg3) K := by
  unfold owns
  sl_unfold [cc3__normalize_kernel]
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4x2000x64.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

theorem after3_2 (t : Fin cfg3.N) : (dat3 V c).after 2 t = out3_2 ((dat3 V c).after 0 t) ((dat3 V c).after 1 t) := by dsimp only [dat3]

-- The body leaves its two inputs as it finds them.
theorem before3_in : ∀ (w : Fin cfg3.W) (_ : (cfg3.win w).isOut = false) (t : Fin cfg3.N) (d), (dat3 V c).before w t d = (dat3 V c).after w t
  | ⟨0, _⟩, _, t, d | ⟨1, _⟩, _, t, d =>
    ((dat3 V c).before_in_eq_fetched _ rfl (fun _ => rfl) (fun _ _ _ => rfl) (fun _ => rfl) t d).trans rfl
  | ⟨2, _⟩, h, _, _ => by cases h

theorem body_obligation3 : BodyObligation (dat3 V c) defs₀ Variants.none () Set.univ := fun t => by
  rw [bigSep_W3, bigSep_W3, after3_2]
  sl_whnfR [defs₀, Defs.onTc]
  simp only [before3_in V c 0 rfl, before3_in V c 1 rfl]
  iintro ⟨HΦ, Ho, ⟨%_, H0⟩, ⟨%_, H1⟩, ⟨%_, H2⟩⟩
  iapply sound_kernel3 c
  iframe H0 H1 H2
  iintro H
  icombine HΦ Ho H as G
  iexact G

end Cert.KernelIdeal.Hand

end
-- ==== Proof.KI.Fold.lean ====
import proofs.«172980_j39402029973982_1_alg».proof.Proof.KI.R0
import proofs.«172980_j39402029973982_1_alg».proof.Proof.KI.R1
import proofs.«172980_j39402029973982_1_alg».proof.Proof.KI.R2
import proofs.«172980_j39402029973982_1_alg».proof.Proof.KI.R3

noncomputable section

namespace Cert.KernelIdeal.Hand

open Cert.KernelIdeal Cert.KernelIdeal.Gen Idealize.ShloMosaic Idealize.ShloMosaic.TcCoe Idealize.SL.Sem

variable {F : FTy → Type} [FloatOps F]

-- A core's buffer contents read at the TensorCore's references.
abbrev rd (W : Dev nD → Valuation τ sig (Elt F)) : (c : Dev nD) → (b : Ref sig .tc) → Buf (Elt F) ((c : Thread nD τ).loc b) :=
  fun c b => W c b

variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
abbrev V3 := rd (W3 m ρ)
-- After a region: its arrays at what the pipeline leaves in them, every other buffer as before.
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 := rd (W4 m ρ)
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev V5 := rd (W5 m ρ)
abbrev W6 : Dev nD → Valuation τ sig (Elt F) := fun c => StableHlo.after main_part2_ops1 (W5 m ρ c)
abbrev V6 := rd (W6 m ρ)
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev V7 := rd (W7 m ρ)
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev V8 := rd (W8 m ρ)

end Cert.KernelIdeal.Hand

end
-- ==== Proof.KI.Run.lean ====
import proofs.«172980_j39402029973982_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V7 m ρ) c
-- What the four regions' proof data have in common.
theorem plain : ∀ (p : Fin 4) (c : Dev nD), (∀ w, (pdats m ρ p c).q w = fullShare) ∧ (∀ t, (pdats m ρ p c).owed t = 0)
    ∧ (∀ t, (pdats m ρ p c).recorded t = Set.univ) ∧ ∀ t, (pdats m ρ p c).Φ t = Pipeline.ΦA (cfgs p).spec c
  | ⟨0, _⟩, _ | ⟨1, _⟩, _ | ⟨2, _⟩, _ | ⟨3, _⟩, _ => ⟨fun _ => rfl, fun _ => rfl, fun _ => rfl, fun _ => rfl⟩
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- The thread state between two segments, at the buffer contents `W`.
abbrev T (W : Dev nD → Valuation τ sig (Elt F)) (c : Dev nD) : sProp 𝕄 :=
  iprop(StableHlo.held (c : Thread nD τ) (Pipeline.ucRefs τ sig) (W c) ∗ R c)
-- A stretch of host operations, none of which allocates, takes the thread state at `W` to the one after the operations.
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
-- Region `p` takes the thread state at `W` to the one at `W'`, which differs from `W` only at the region's arrays.
def reg (p : Fin 4) (lf : Pipeline.LaunchFacts (nD := nD) (τ := τ) cfgs p) (W W' : Dev nD → Valuation τ sig (Elt F))
    (hb : ∀ c, BodyObligation (pdats m ρ p c) defs₀ 𝒱₀ () Set.univ)
    (hA : ∀ c w, (pdats m ρ p c).A w = W c (Pipeline.arrRef (cfgs p).spec w))
    (hF : ∀ c w, W' c (Pipeline.arrRef (cfgs p).spec w) = (pdats m ρ p c).arrAt w (cfgs p).N)
    (hrest : ∀ c (b : Ref sig .tc), (∀ w, Pipeline.arrRef (cfgs p).spec w ≠ b) → W' c b = W c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).2.1
  pre := T W
  post := T W'
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    obtain ⟨hq, ho, hr, -⟩ := plain m ρ p c
    have hsplit := Pipeline.arrays_of_unscopedBufs (p := p) (pcfgs (F := F)) adm (pdats m ρ) lf.win lf.arr_whole c
      ((pdats m ρ p c).share_full hq) (fun b => W c b) (hA c)
    rw [Pipeline.unscopedBufs_held] at hsplit
    rw [Pipeline.ownSems0_none]
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp] <;> iassumption
  hin c := by
    rw [(plain m ρ p c).2.2.2]; unfold Pipeline.ΦA
    iintro ⟨Hp, -, Hr⟩
    isplitl [Hr] <;> iassumption
  hout c := by
    rw [Pipeline.ownSems0_none, (plain m ρ p c).2.2.2]; unfold Pipeline.ΦA
    iintro ⟨Hr, Hp⟩
    isplitl [Hp]; · iexact Hp
    isplitr; · iempintro
    iexact Hr
  hexit c := by
    obtain ⟨hq, ho, -, -⟩ := plain m ρ p c
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full hq)
      (fun b => W c b) (fun b => W' c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    unfold Pipeline.Dat.owesAt Pipeline.owesWithin; rw [ho]
    iintro ⟨Ha, ⟨%W, -, HO⟩, HY, Hrest⟩
    imodintro
    isplitl [Ha Hrest]
    · iapply hjoin; isplitl [Ha] <;> iassumption
    isplitl [HY]; · iexact HY
    iexists W; iexact HO

abbrev segs : List (Pipeline.Seg (pcfgs (F := F)) adm (pdats m ρ) () defs₀ 𝒱₀ L lv) :=
  [ .host (hseg main_part0_ops0 main_part0_ops0_sub (W0 m ρ)),
    .host (hseg main_part1_ops0 main_part1_ops0_sub (W1 m ρ)),
    .host (hseg main_part2_ops0 main_part2_ops0_sub (W2 m ρ)),
    .region (reg m ρ 0 launch0 (W3 m ρ) (W4 m ρ) (body_obligation0 (V3 m ρ)) (fun _ _ => rfl) (W4_arr m ρ) (W4_of_ne m ρ)),
    .region (reg m ρ 1 launch1 (W4 m ρ) (W5 m ρ) (body_obligation1 (V4 m ρ)) (fun _ _ => rfl) (W5_arr m ρ) (W5_of_ne m ρ)),
    .host (hseg main_part2_ops1 main_part2_ops1_sub (W5 m ρ)),
    .region (reg m ρ 2 launch2 (W6 m ρ) (W7 m ρ) (body_obligation2 (V6 m ρ)) (fun _ _ => rfl) (W7_arr m ρ) (W7_of_ne m ρ)),
    .region (reg m ρ 3 launch3 (W7 m ρ) (W8 m ρ) (body_obligation3 (V7 m ρ)) (fun _ _ => rfl) (W8_arr m ρ) (W8_of_ne m ρ)) ]
theorem main_run (c : Dev nD) : main (F := F) c = Pipeline.Seg.run (segs m ρ) := (main_chain_windows c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact Laws.sep_emp.mpr.trans fupd_intro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Hand

end
-- ==== Proof.KI.Args.lean ====
import proofs.«172980_j39402029973982_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

-- An operation whose one result is in a list of references writes inside that list.
theorem writes_sub_of_mem {Wl : List (Ref sig .tc)} {op : HloOp τ sig (Elt F)} {y : Ref sig .tc}
    (hw : op.writes = {Proc.devRef .tc y}) (hy : y ∈ Wl) : op.writes ⊆ (Wl.map (Proc.devRef (τ := τ) .tc)).toFinset := by
  rw [hw, Finset.singleton_subset_iff, List.mem_toFinset]; exact List.mem_map_of_mem hy

abbrev ops0_W : List (Ref sig .tc) := [main_v0, main_c, main_v1, main_v2, main_c_0, main_v3, main_v4, main_v5, main_v6, main_v7, main_v8, main_v9, main_cst, main_v10, main_v11, main_v12, main_v13, main_c_1, main_v14, main_v15, main_c_2, main_v16, main_v17, main_v18, main_v19, main_v20, main_v21, main_v22, main_cst_3, main_v23, main_v24, main_v25, main_v26, main_c_4, main_v27, main_v28, main_c_5, main_v29, main_v30, main_v31, main_v32, main_v33, main_v34, main_v35, main_cst_6, main_v36, main_v37, main_v38, main_v39, main_c_7, main_v40, main_v41, main_c_8, main_v42, main_v43, main_v44, main_v45, main_v46, main_v47, main_v48]
abbrev ops1_W : List (Ref sig .tc) := [main_cst_9, main_v49, main_v50, main_v51, main_v52, main_c_10, main_v53, main_v54, main_c_11, main_v55, main_v56, main_v57, main_v58, main_v59, main_v60, main_v61, main_cst_12, main_v62, main_v63, main_v64, main_v65, main_c_13, main_v66, main_v67, main_c_14, main_v68, main_v69, main_v70, main_v71, main_v72, main_v73, main_v74, main_cst_15, main_v75, main_v76, main_v77, main_v78, main_c_16, main_v79, main_v80, main_c_17, main_v81, main_v82, main_v83, main_v84, main_v85, main_v86, main_v87, main_cst_18, main_v88, main_v89, main_v90, main_v91, main_c_19, main_v92, main_v93, main_c_20, main_v94, main_v95, main_v96]
abbrev ops2_W : List (Ref sig .tc) := [main_v97, main_v98, main_v99, main_v100, main_cst_21, main_v101, main_v102, main_v103, main_v104, main_v105, main_v106, main_v107, main_v108, main_v109, main_v110, main_v111, main_v112, main_v113]
abbrev ops3_W : List (Ref sig .tc) := [main_v116, main_cst_22, main_v117, main_v118, main_cst_23, main_v119, main_v120, main_v121, main_v122, main_cst_24, main_v123, main_v124, main_cst_25, main_v125, main_v126, main_v127]

theorem main_part0_ops0_writes : (main_part0_ops0 : List (HloOp τ sig (Elt F))).Forall fun op => op.writes ⊆ (ops0_W.map (Proc.devRef (τ := τ) .tc)).toFinset := by
  simp only [List.Forall]; and_intros <;> exact writes_sub_of_mem rfl (by decide)
theorem main_part1_ops0_writes : (main_part1_ops0 : List (HloOp τ sig (Elt F))).Forall fun op => op.writes ⊆ (ops1_W.map (Proc.devRef (τ := τ) .tc)).toFinset := by
  simp only [List.Forall]; and_intros <;> exact writes_sub_of_mem rfl (by decide)
theorem main_part2_ops0_writes : (main_part2_ops0 : List (HloOp τ sig (Elt F))).Forall fun op => op.writes ⊆ (ops2_W.map (Proc.devRef (τ := τ) .tc)).toFinset := by
  simp only [List.Forall]; and_intros <;> exact writes_sub_of_mem rfl (by decide)
theorem main_part2_ops1_writes : (main_part2_ops1 : List (HloOp τ sig (Elt F))).Forall fun op => op.writes ⊆ (ops3_W.map (Proc.devRef (τ := τ) .tc)).toFinset := by
  simp only [List.Forall]; and_intros <;> exact writes_sub_of_mem rfl (by decide)

section
variable (c : Dev nD) (r : Ref sig .tc)

-- A reference a stretch does not write keeps its contents across it.
theorem W1_of (h : r ∉ ops0_W) : W1 m ρ c (Proc.devRef .tc r) = W0 m ρ c (Proc.devRef .tc r) :=
  StableHlo.after_of_writes_sub main_part0_ops0 _ main_part0_ops0_writes h
theorem W2_of (h : r ∉ ops1_W) : W2 m ρ c (Proc.devRef .tc r) = W1 m ρ c (Proc.devRef .tc r) :=
  StableHlo.after_of_writes_sub main_part1_ops0 _ main_part1_ops0_writes h
theorem W3_of (h : r ∉ ops2_W) : W3 m ρ c (Proc.devRef .tc r) = W2 m ρ c (Proc.devRef .tc r) :=
  StableHlo.after_of_writes_sub main_part2_ops0 _ main_part2_ops0_writes h
theorem W6_of (h : r ∉ ops3_W) : W6 m ρ c (Proc.devRef .tc r) = W5 m ρ c (Proc.devRef .tc r) :=
  StableHlo.after_of_writes_sub main_part2_ops1 _ main_part2_ops1_writes h

-- Not written by the three stretches before the first region: as launched.
theorem W3_eq_W0 (h : r ∉ ops0_W ∧ r ∉ ops1_W ∧ r ∉ ops2_W) : W3 m ρ c (Proc.devRef .tc r) = m ((c : Thread nD τ).loc r) :=
  (W3_of m ρ c r h.2.2).trans ((W2_of m ρ c r h.2.1).trans (W1_of m ρ c r h.1))
-- No array of regions 0 and 1: as at region 0's entry.
theorem W5_eq_W3 (h : (∀ w, Pipeline.arrRef spec0 w ≠ r) ∧ ∀ w, Pipeline.arrRef spec1 w ≠ r) :
    W5 m ρ c (Proc.devRef .tc r) = W3 m ρ c (Proc.devRef .tc r) :=
  (W5_of_ne m ρ c r h.2).trans (W4_of_ne m ρ c r h.1)
-- Not written by the last stretch and no array of regions 2 and 3: as at region 1's exit.
theorem W8_eq_W5 (h : r ∉ ops3_W ∧ (∀ w, Pipeline.arrRef spec2 w ≠ r) ∧ ∀ w, Pipeline.arrRef spec3 w ≠ r) :
    W8 m ρ c (Proc.devRef .tc r) = W5 m ρ c (Proc.devRef .tc r) :=
  (W8_of_ne m ρ c r h.2.2).trans ((W7_of_ne m ρ c r h.2.1).trans (W6_of m ρ c r h.1))

-- A reference no stretch writes and no region has among its arrays ends as launched.
abbrev Kept : Prop := (r ∉ ops0_W ∧ r ∉ ops1_W ∧ r ∉ ops2_W) ∧ ((∀ w, Pipeline.arrRef spec0 w ≠ r) ∧ ∀ w, Pipeline.arrRef spec1 w ≠ r)
  ∧ r ∉ ops3_W ∧ (∀ w, Pipeline.arrRef spec2 w ≠ r) ∧ ∀ w, Pipeline.arrRef spec3 w ≠ r
theorem W8_kept (h : Kept r) : W8 m ρ c (Proc.devRef .tc r) = m ((c : Thread nD τ).loc r) :=
  (W8_eq_W5 m ρ c r h.2.2).trans ((W5_eq_W3 m ρ c r h.2.1).trans (W3_eq_W0 m ρ c r h.1))

end

-- The two weight matrices are read by a region (an input window): they pass through it unchanged.
theorem W4_in (c : Dev nD) (w : Fin cfg0.W) (h : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w h _).trans (A_eq0 (V3 m ρ) c w))
theorem W5_in (c : Dev nD) (w : Fin cfg1.W) (h : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w h _).trans (A_eq1 (V4 m ρ) c w))

section
variable (c : Dev nD)

theorem W8_main_arg8 : W8 m ρ c (Proc.devRef .tc main_arg8) = m ((c : Thread nD τ).loc main_arg8) :=
  (W8_eq_W5 m ρ c main_arg8 (by decide)).trans ((W5_of_ne m ρ c main_arg8 (by decide)).trans ((W4_in m ρ c 1 rfl).trans (W3_eq_W0 m ρ c main_arg8 (by decide))))
theorem W8_main_arg9 : W8 m ρ c (Proc.devRef .tc main_arg9) = m ((c : Thread nD τ).loc main_arg9) :=
  (W8_eq_W5 m ρ c main_arg9 (by decide)).trans ((W5_in m ρ c 1 rfl).trans ((W4_of_ne m ρ c main_arg9 (by decide)).trans (W3_eq_W0 m ρ c main_arg9 (by decide))))

-- Each region's outputs, read at the end, are what its pipeline left.
theorem W8_main_v114_0 : W8 m ρ c (Proc.devRef .tc main_v114_0) = (dat0 (V3 m ρ) c).arrAt 2 cfg0.N :=
  (W8_eq_W5 m ρ c main_v114_0 (by decide)).trans ((W5_of_ne m ρ c main_v114_0 (by decide)).trans (W4_arr m ρ c 2))
theorem W8_main_v115_0 : W8 m ρ c (Proc.devRef .tc main_v115_0) = (dat1 (V4 m ρ) c).arrAt 2 cfg1.N :=
  (W8_eq_W5 m ρ c main_v115_0 (by decide)).trans (W5_arr m ρ c 2)
theorem W8_main_v128 : W8 m ρ c (Proc.devRef .tc main_v128) = (dat2 (V6 m ρ) c).arrAt 2 cfg2.N :=
  (W8_of_ne m ρ c main_v128 (by decide)).trans (W7_arr m ρ c 2)
theorem W5_main_v114_1 : W5 m ρ c (Proc.devRef .tc main_v114_1) = (dat0 (V3 m ρ) c).arrAt 3 cfg0.N :=
  (W5_of_ne m ρ c main_v114_1 (by decide)).trans (W4_arr m ρ c 3)

-- Each stack as the later regions find it is the stack at region 0's entry.
theorem V6_main_v108 : V6 m ρ c main_v108 = V3 m ρ c main_v108 :=
  (W6_of m ρ c main_v108 (by decide)).trans ((W5_of_ne m ρ c main_v108 (by decide)).trans (W4_in m ρ c 0 rfl))
theorem V7_main_v113 : V7 m ρ c main_v113 = V3 m ρ c main_v113 :=
  (W7_of_ne m ρ c main_v113 (by decide)).trans ((W6_of m ρ c main_v113 (by decide)).trans ((W5_in m ρ c 0 rfl).trans (W4_of_ne m ρ c main_v113 (by decide))))

end

end Cert.KernelIdeal.Hand

end
-- ==== Proof.KI.Frame.lean ====
import proofs.«172980_j39402029973982_1_alg».proof.Defs
import proofs.«172980_j39402029973982_1_alg».proof.Proof.Gen.KernelIdeal
import proofs.«172980_j39402029973982_1_alg».proof.Proof.Gen.Pre_finite_inputs
import proofs.«172980_j39402029973982_1_alg».proof.Proof.KI.Run
import proofs.«172980_j39402029973982_1_alg».proof.Proof.KI.Args

noncomputable section

namespace Cert.KernelIdeal.Hand

open Cert.KernelIdeal Cert.KernelIdeal.Gen
open Idealize.ShloMosaic Idealize.ShloMosaic.TcCoe Idealize.SL.Sem

-- The run ends with every unscoped buffer at the last boundary's contents, and there each argument is as launched.
theorem frame : Cert.frame_KernelIdeal (hKernelIdeal := Gen.facts) (hPre_finite_inputs := Cert.Pre_finite_inputs.Gen.facts) := fun m ρ _ =>
  (θ_run defs _ _).mono (fun r h c => by
    and_intros <;> first
      | exact (h c _ (mem_uc _ (by decide))).trans (W8_kept m ρ c _ (by decide))
      | exact (h c _ (mem_uc _ (by decide))).trans (W8_main_arg8 m ρ c)
      | exact (h c _ (mem_uc _ (by decide))).trans (W8_main_arg9 m ρ c)) (run_all m ρ)

end Cert.KernelIdeal.Hand

end
-- ==== Proof.KI.Val2.lean ====
import proofs.«172980_j39402029973982_1_alg».proof.Proof.KI.R2
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

abbrev scaled2 (X : S4x150000x64.Idx → Ideal .f32) (N : S4x1x64.Idx → Ideal .f32) : S4x150000x64.Idx → Ideal .f32 :=
  fun i => X i * N (ix3 (i 0) 0 (i 2))

-- The body's product at an index: the entry times the inverse norm of its column.
theorem pay2_apply (x0 : Vec Ideal S4x5000x64 .f32) (x1 : Vec Ideal S4x1x64 .f32) (j : S4x5000x64.Idx) :
    k2_pay1 x0 x1 j = x0 j * x1 (ix3 (j 0) 0 (j 2)) := by
  unfold k2_pay1
  refine (mulf_apply _ _ j).trans ?_
  rw [shapeCast_self, shapeCast_self]
  exact congrArg (x0 j * ·) (broadcastTo_apply x1 _ j _ fun a => by
    match a with | ⟨0, _⟩ | ⟨1, _⟩ | ⟨2, _⟩ => rfl)

-- The three index maps, decided over the grid.
theorem idx_facts2 : ∀ t : Fin cfg2.N, win2_0.index t = win2_2.index t ∧ win2_1.index t = 0 ∧ win2_2.index t = ![0, t.val, 0] :=
  (by decide +kernel : ∀ t : Fin grid2.N, _)

variable (V : (c : Dev nD) → (b : Ref sig .tc) → Buf (Elt Ideal) ((c : Thread nD τ).loc b)) (c : Dev nD)

abbrev xarr2 : S4x150000x64.Idx → Ideal .f32 := V c main_v108
abbrev narr2 : S4x1x64.Idx → Ideal .f32 := V c main_v121

-- Point t's result is block t of the scaled table, and the blocks of rows tile the table.
theorem arr2_eq : (dat2 V c).arrAt 2 cfg2.N = scaled2 (xarr2 V c) (narr2 V c) := by
  refine (dat2 V c).arrAt_eq_of_cover 2 _ (fun t _ => ?_) fun i => ?_
  · obtain ⟨e0, e1, e2⟩ := idx_facts2 t
    have z : (![0, 0, 0] : Fin 3 → ℕ) = fun _ => 0 := by decide
    rw [Pipeline.Dat.flushed, after2_2, out2_2, View.canon_unit_zero z, View.ld_unit_zero z, View.ld_unit_zero z]
    funext j
    refine (pay2_apply _ _ j).trans (congrArg₂ (· * ·) (congrArg (xarr2 V c) ?_) (congrArg (narr2 V c) ?_))
    · exact funext fun a => Fin.ext (by
        show ((win2_0.rect t).emb j a : ℕ) = (win2_2.rect t).emb j a
        rw [win2_0.rect_emb_val, win2_2.rect_emb_val, e0])
    · have h (a) (ha : win2_2.index t a = 0) := win2_2.rect_emb_val_of_index_zero t a ha j
      exact (funext fun a => Fin.ext (win2_1.rect_emb_val_of_index_zero t a (congrFun e1 a) _)).trans
        (congrArg₂ (ix3 · 0 ·) (Fin.ext (h 0 (congrFun e2 0))).symm (Fin.ext (h 2 (congrFun e2 2))).symm)
  · have hi : (i 1).val < 150000 := (i 1).isLt
    have hN : cfg2.N = 30 := N_2
    obtain ⟨t, ht⟩ : ∃ t : Fin cfg2.N, t.val = (i 1).val / 5000 := ⟨⟨_, by rw [hN]; omega⟩, rfl⟩
    refine ⟨t, flush2_2 t, ?_⟩
    show i ∈ ((View.whole main_v128).slice (win2_2.rect t)).set
    rw [View.set_slice_whole, Rect.mem_set_unit]
    intro a
    rw [(idx_facts2 t).2.2]
    match a with
    | ⟨1, _⟩ => show t.val * 5000 ≤ (i 1).val ∧ (i 1).val < t.val * 5000 + 5000; omega
    | ⟨0, _⟩ | ⟨2, _⟩ => exact ⟨Nat.zero_le _, (i _).isLt⟩

end Cert.KernelIdeal.Hand

end
-- ==== Proof.KI.Val3.lean ====
import proofs.«172980_j39402029973982_1_alg».proof.Proof.KI.R3
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

abbrev scaled3 (X : S4x80000x64.Idx → Ideal .f32) (N : S4x1x64.Idx → Ideal .f32) : S4x80000x64.Idx → Ideal .f32 :=
  fun i => X i * N (ix3 (i 0) 0 (i 2))

-- The body's product at an index: the entry times the inverse norm of its column.
theorem pay3_apply (x0 : Vec Ideal S4x2000x64 .f32) (x1 : Vec Ideal S4x1x64 .f32) (j : S4x2000x64.Idx) :
    k3_pay1 x0 x1 j = x0 j * x1 (ix3 (j 0) 0 (j 2)) := by
  unfold k3_pay1
  refine (mulf_apply _ _ j).trans ?_
  rw [shapeCast_self, shapeCast_self]
  exact congrArg (x0 j * ·) (broadcastTo_apply x1 _ j _ fun a => by
    match a with | ⟨0, _⟩ | ⟨1, _⟩ | ⟨2, _⟩ => rfl)

-- The three index maps, decided over the grid.
theorem idx_facts3 : ∀ t : Fin cfg3.N, win3_0.index t = win3_2.index t ∧ win3_1.index t = 0 ∧ win3_2.index t = ![0, t.val, 0] :=
  (by decide +kernel : ∀ t : Fin grid3.N, _)

variable (V : (c : Dev nD) → (b : Ref sig .tc) → Buf (Elt Ideal) ((c : Thread nD τ).loc b)) (c : Dev nD)

abbrev xarr3 : S4x80000x64.Idx → Ideal .f32 := V c main_v113
abbrev narr3 : S4x1x64.Idx → Ideal .f32 := V c main_v127

-- Point t's result is block t of the scaled table, and the blocks of rows tile the table.
theorem arr3_eq : (dat3 V c).arrAt 2 cfg3.N = scaled3 (xarr3 V c) (narr3 V c) := by
  refine (dat3 V c).arrAt_eq_of_cover 2 _ (fun t _ => ?_) fun i => ?_
  · obtain ⟨e0, e1, e2⟩ := idx_facts3 t
    have z : (![0, 0, 0] : Fin 3 → ℕ) = fun _ => 0 := by decide
    rw [Pipeline.Dat.flushed, after3_2, out3_2, View.canon_unit_zero z, View.ld_unit_zero z, View.ld_unit_zero z]
    funext j
    refine (pay3_apply _ _ j).trans (congrArg₂ (· * ·) (congrArg (xarr3 V c) ?_) (congrArg (narr3 V c) ?_))
    · exact funext fun a => Fin.ext (by
        show ((win3_0.rect t).emb j a : ℕ) = (win3_2.rect t).emb j a
        rw [win3_0.rect_emb_val, win3_2.rect_emb_val, e0])
    · have h (a) (ha : win3_2.index t a = 0) := win3_2.rect_emb_val_of_index_zero t a ha j
      exact (funext fun a => Fin.ext (win3_1.rect_emb_val_of_index_zero t a (congrFun e1 a) _)).trans
        (congrArg₂ (ix3 · 0 ·) (Fin.ext (h 0 (congrFun e2 0))).symm (Fin.ext (h 2 (congrFun e2 2))).symm)
  · have hi : (i 1).val < 80000 := (i 1).isLt
    have hN : cfg3.N = 40 := N_3
    obtain ⟨t, ht⟩ : ∃ t : Fin cfg3.N, t.val = (i 1).val / 2000 := ⟨⟨_, by rw [hN]; omega⟩, rfl⟩
    refine ⟨t, flush3_2 t, ?_⟩
    show i ∈ ((View.whole main_v129).slice (win3_2.rect t)).set
    rw [View.set_slice_whole, Rect.mem_set_unit]
    intro a
    rw [(idx_facts3 t).2.2]
    match a with
    | ⟨1, _⟩ => show t.val * 2000 ≤ (i 1).val ∧ (i 1).val < t.val * 2000 + 2000; omega
    | ⟨0, _⟩ | ⟨2, _⟩ => exact ⟨Nat.zero_le _, (i _).isLt⟩

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

-- The divisor of the mean, the lower bound of a norm and the numerator of a reciprocal, as both programs spell them.
abbrev four : Ideal .f32 := Ideal.ofBits .f32 0x40800000#32
abbrev eps : Ideal .f32 := Ideal.ofBits .f32 0x2B8CBCCC#32
abbrev one : Ideal .f32 := Ideal.ofBits .f32 0x3F800000#32

-- The mean over the four relations of entry (r, k).
def meanRel {n : Nat} (X : (⟨3, ![4, n, 64]⟩ : Shape).Idx → Ideal .f32) (r : Fin n) (k : Fin 64) : Ideal .f32 :=
  Ideal.div (∑ j : Fin 4, X (ix3 j r k)) four

-- The logistic function of (mean over relations) · W, entry by entry.
def proj {n : Nat} (X : (⟨3, ![4, n, 64]⟩ : Shape).Idx → Ideal .f32) (W : (⟨2, ![64, 64]⟩ : Shape).Idx → Ideal .f32) :
    (⟨2, ![n, 64]⟩ : Shape).Idx → Ideal .f32 :=
  fun i => Ideal.logistic (∑ k : Fin 64, meanRel X (i 0) k * W (ix2 k (i 1)))

-- For relation j and feature d, the sum over ALL rows of the squares.
def sumsq {n : Nat} (X : (⟨3, ![4, n, 64]⟩ : Shape).Idx → Ideal .f32) : (⟨2, ![4, 64]⟩ : Shape).Idx → Ideal .f32 :=
  fun i => ∑ r : Fin n, X (ix3 (i 0) r (i 1)) * X (ix3 (i 0) r (i 1))

-- The Euclidean norm of column (j, d), bounded below.
def bnorm {n : Nat} (X : (⟨3, ![4, n, 64]⟩ : Shape).Idx → Ideal .f32) (j : Fin 4) (d : Fin 64) : Ideal .f32 :=
  max (Ideal.sqrt (sumsq X (ix2 j d))) eps

-- Each entry over the bounded norm of its column.
def normed {n : Nat} (X : (⟨3, ![4, n, 64]⟩ : Shape).Idx → Ideal .f32) : (⟨3, ![4, n, 64]⟩ : Shape).Idx → Ideal .f32 :=
  fun i => Ideal.div (X i) (bnorm X (i 0) (i 2))

end Cert.Spec

end
-- ==== Proof.SpecLaws.lean ====
import Idealize.ShloMosaic.PureOps.Ideal
import proofs.«172980_j39402029973982_1_alg».proof.Proof.Spec

noncomputable section

namespace Cert.Spec

open Idealize.ShloMosaic Idealize.ShloMosaic.ValueIdx

-- The numerator word is the real 1 and the bound is a positive real, so a bounded norm is never 0.
theorem one_eq : one = (1 : EReal) := by
  simp [one, Ideal.ofBits, Ideal.ieee, -EReal.coe_mul]; norm_num

theorem eps_pos : (0 : EReal) < eps := by
  simp [eps, Ideal.ofBits, Ideal.ieee, -EReal.coe_mul]

theorem bnorm_ne_zero {n : Nat} (X : (⟨3, ![4, n, 64]⟩ : Shape).Idx → Ideal .f32) (j : Fin 4) (d : Fin 64) :
    bnorm X j d ≠ 0 :=
  ne_of_gt (lt_of_lt_of_le eps_pos (le_max_right _ _))

-- Off zero the product with the reciprocal is the quotient, at the infinities as well: no finiteness is used.
theorem mul_recip {M : EReal} (hM : M ≠ 0) (x : EReal) : x * Ideal.div one M = Ideal.div x M := by
  rw [one_eq, Ideal.div, if_neg hM, one_mul, Ideal.div, if_neg hM]

end Cert.Spec

end
-- ==== Proof.RefVal.lean ====
import proofs.«172980_j39402029973982_1_alg».proof.Proof.Gen.ReferenceIdeal.Run
import proofs.«172980_j39402029973982_1_alg».proof.Proof.Spec
import Idealize.ShloMosaic.Lib.IdealHost
import Idealize.ShloMosaic.Lib.StackMember

noncomputable section

namespace Cert.ReferenceIdeal.RefValue

open Cert.ReferenceIdeal Cert.ReferenceIdeal.Gen Idealize.ShloMosaic Idealize.ShloMosaic.StableHlo Idealize.ShloMosaic.ValueIdx
  Idealize.ShloMosaic.StackMember

variable {n : Nat} (X : FVec Ideal ⟨3, ![4, n, 64]⟩ .f32)
  {h0 : (⟨3, ![4, n, 64]⟩ : Shape).ReducesTo [0] ⟨2, ![n, 64]⟩} {h1 : (⟨3, ![4, n, 64]⟩ : Shape).ReducesTo [1] S4x64}
  {hb : S_.BroadcastsInDim ⟨2, ![n, 64]⟩ ![]} {hb3 : S4x1x64.BroadcastsInDim ⟨3, ![4, n, 64]⟩ ![0, 1, 2]}

-- The sum over the four relations divided by four is the mean over the relations.
theorem mean_read (r : Fin n) (k : Fin 64) :
    Host.divf (Host.reduceAdd X (constant S_ .f32 0x00000000#32) h0 h_S_)
        (broadcastInDim ⟨2, ![n, 64]⟩ ![] hb (constant S_ .f32 0x40800000#32)) (ix2 r k)
      = Cert.Spec.meanRel X r k := by
  rw [hostDivf_apply, hostReduceAdd_apply, broadcastInDim_scalar_apply, constant_apply, constant_apply,
    Ideal.hostReduceAdd_single h0 ⟨h0.1, Nat.two_pos, h0.2⟩, Ideal.ofBits_zero_f32, zero_add]
  exact congrArg (Ideal.div · _) (Finset.sum_congr rfl fun j _ => congrArg X (eq_ix3 _))

-- The reciprocal of one plus the exponential of minus (mean · W) is the logistic projection.
theorem proj_read (W : FVec Ideal S64x64 .f32) :
    (Host.divf (broadcastInDim ⟨2, ![n, 64]⟩ ![] hb (constant S_ .f32 0x3F800000#32))
      (addf (broadcastInDim ⟨2, ![n, 64]⟩ ![] hb (constant S_ .f32 0x3F800000#32))
        (Host.exp (Host.negf (Host.dotGeneral (DotDims.plain n 64 64) none
          (Host.divf (Host.reduceAdd X (constant S_ .f32 0x00000000#32) h0 h_S_)
            (broadcastInDim ⟨2, ![n, 64]⟩ ![] hb (constant S_ .f32 0x40800000#32))) W)))) : (⟨2, ![n, 64]⟩ : Shape).Idx → Ideal .f32)
      = Cert.Spec.proj X W := by
  funext i
  obtain ⟨p, c, rfl⟩ : ∃ (p : Fin n) (c : Fin 64), i = ix2 p c := ⟨i 0, i 1, eq_ix2 i⟩
  unfold Host.exp Host.negf
  rw [hostDivf_apply, addf_apply, broadcastInDim_scalar_apply, constant_apply, dotGeneral_plain_apply, Ideal.ofBits_one_f32]
  exact congrArg (fun s => Ideal.div 1 (1 + Ideal.exp (-s))) (Finset.sum_congr rfl fun k _ => by rw [mean_read]; rfl)

-- The sum over the rows of the squared entries.
theorem sumsq_read (j : Fin 4) (d : Fin 64) :
    Host.reduceAdd (mulf X X) (constant S_ .f32 0x00000000#32) h1 h_S_ (ix2 j d) = Cert.Spec.sumsq X (ix2 j d) := by
  rw [hostReduceAdd_apply, constant_apply, Ideal.hostReduceAdd_single h1 ⟨h1.1, Nat.two_pos, h1.2⟩, Ideal.ofBits_zero_f32, zero_add]
  exact Finset.sum_congr rfl fun r _ => congrArg (fun i => X i * X i) (eq_ix3 _)

-- Each entry over the root of its column's sum of squares, bounded below and copied down the rows.
theorem normed_read :
    (Host.divf X (broadcastInDim ⟨3, ![4, n, 64]⟩ ![0, 1, 2] hb3
      (maximumf (Host.sqrt (broadcastInDim S4x1x64 ![0, 2] bcast_S4x64_S4x1x64_0_2
          (Host.reduceAdd (mulf X X) (constant S_ .f32 0x00000000#32) h1 h_S_)))
        (broadcastInDim S4x1x64 ![] bcast_S_S4x1x64 (constant S_ .f32 0x2B8CBCCC#32)))) : (⟨3, ![4, n, 64]⟩ : Shape).Idx → Ideal .f32)
      = Cert.Spec.normed X := by
  funext i
  obtain ⟨j, r, d, rfl⟩ : ∃ (j : Fin 4) (r : Fin n) (d : Fin 64), i = ix3 j r d := ⟨i 0, i 1, i 2, eq_ix3 i⟩
  unfold Host.sqrt
  rw [hostDivf_apply, broadcastInDim_apply ![0, 1, 2] hb3 _ (ix3 j r d) (ix3 j (0 : Fin 1) d)
      (fun a => by match a with | ⟨0, _⟩ => rfl | ⟨1, _⟩ => rfl | ⟨2, _⟩ => rfl),
    maximumf_apply, broadcastInDim_scalar_apply, constant_apply,
    broadcastInDim_apply ![0, 2] bcast_S4x64_S4x1x64_0_2 _ (ix3 j (0 : Fin 1) d) (ix2 j d)
      (fun a => by match a with | ⟨0, _⟩ => rfl | ⟨1, _⟩ => rfl), sumsq_read]
  rfl

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123) = Cert.Spec.proj (n := 150000) (Value.res_main_v108 (launchContents m c)) ((launchContents m c) (Proc.devRef .tc main_arg8))
      ∧ r.2.mem ((c.tc : Thread nD τ).loc main_v133) = Cert.Spec.proj (n := 80000) (Value.res_main_v113 (launchContents m c)) ((launchContents m c) (Proc.devRef .tc main_arg9))
      ∧ r.2.mem ((c.tc : Thread nD τ).loc main_v141) = Cert.Spec.normed (n := 150000) (Value.res_main_v108 (launchContents m c))
      ∧ r.2.mem ((c.tc : Thread nD τ).loc main_v149) = Cert.Spec.normed (n := 80000) (Value.res_main_v113 (launchContents m c))
      ∧ r.2.mem ((c.tc : Thread nD τ).loc main_v12) = Host.scatterAdd (F := Ideal) scatter_S150000x64_S2000000x1_S2000000x64_1_0_0_1 (broadcastInDim S150000x64 ![] bcast_S_S150000x64 (constant S_ .f32 0x00000000#32)) (broadcastInDim S2000000x1 ![0] bcast_S2000000_S2000000x1_0 ((launchContents m c) (Proc.devRef .tc main_arg10))) (mulf (broadcastInDim S2000000x64 ![0, 1] bcast_S2000000x1_S2000000x64_0_1 (broadcastInDim S2000000x1 ![0] bcast_S2000000_S2000000x1_0 ((launchContents m c) (Proc.devRef .tc main_arg12)))) (Host.gather gather_S80000x64_S2000000x1_S2000000x64_1_0_n_n_0_1_164 ((launchContents m c) (Proc.devRef .tc main_arg3)) (broadcastInDim S2000000x1 ![0] bcast_S2000000_S2000000x1_0 (select (cmpi .slt ((launchContents m c) (Proc.devRef .tc main_arg11)) (broadcastInDim S2000000 ![] bcast_S_S2000000 (constantI S_ 32 0#32))) (addi ((launchContents m c) (Proc.devRef .tc main_arg11)) (broadcastInDim S2000000 ![] bcast_S_S2000000 (constantI S_ 32 80000#32))) ((launchContents m c) (Proc.devRef .tc main_arg11))))))
      ∧ r.2.mem ((c.tc : Thread nD τ).loc main_v64) = Host.scatterAdd (F := Ideal) scatter_S80000x64_S2000000x1_S2000000x64_1_0_0_1 (broadcastInDim S80000x64 ![] bcast_S_S80000x64 (constant S_ .f32 0x00000000#32)) (broadcastInDim S2000000x1 ![0] bcast_S2000000_S2000000x1_0 ((launchContents m c) (Proc.devRef .tc main_arg11))) (mulf (broadcastInDim S2000000x64 ![0, 1] bcast_S2000000x1_S2000000x64_0_1 (broadcastInDim S2000000x1 ![0] bcast_S2000000_S2000000x1_0 ((launchContents m c) (Proc.devRef .tc main_arg12)))) (Host.gather gather_S150000x64_S2000000x1_S2000000x64_1_0_n_n_0_1_164 ((launchContents m c) (Proc.devRef .tc main_arg2)) (broadcastInDim S2000000x1 ![0] bcast_S2000000_S2000000x1_0 (select (cmpi .slt ((launchContents m c) (Proc.devRef .tc main_arg10)) (broadcastInDim S2000000 ![] bcast_S_S2000000 (constantI S_ 32 0#32))) (addi ((launchContents m c) (Proc.devRef .tc main_arg10)) (broadcastInDim S2000000 ![] bcast_S_S2000000 (constantI S_ 32 150000#32))) ((launchContents m c) (Proc.devRef .tc main_arg10))))))
      ∧ r.2.mem ((c.tc : Thread nD τ).loc main_v25) = Host.scatterAdd (F := Ideal) scatter_S150000x64_S2000000x1_S2000000x64_1_0_0_1 (broadcastInDim S150000x64 ![] bcast_S_S150000x64 (constant S_ .f32 0x00000000#32)) (broadcastInDim S2000000x1 ![0] bcast_S2000000_S2000000x1_0 ((launchContents m c) (Proc.devRef .tc main_arg13))) (mulf (broadcastInDim S2000000x64 ![0, 1] bcast_S2000000x1_S2000000x64_0_1 (broadcastInDim S2000000x1 ![0] bcast_S2000000_S2000000x1_0 ((launchContents m c) (Proc.devRef .tc main_arg15)))) (Host.gather gather_S80000x64_S2000000x1_S2000000x64_1_0_n_n_0_1_164 ((launchContents m c) (Proc.devRef .tc main_arg5)) (broadcastInDim S2000000x1 ![0] bcast_S2000000_S2000000x1_0 (select (cmpi .slt ((launchContents m c) (Proc.devRef .tc main_arg14)) (broadcastInDim S2000000 ![] bcast_S_S2000000 (constantI S_ 32 0#32))) (addi ((launchContents m c) (Proc.devRef .tc main_arg14)) (broadcastInDim S2000000 ![] bcast_S_S2000000 (constantI S_ 32 80000#32))) ((launchContents m c) (Proc.devRef .tc main_arg14))))))
      ∧ r.2.mem ((c.tc : Thread nD τ).loc main_v77) = Host.scatterAdd (F := Ideal) scatter_S80000x64_S2000000x1_S2000000x64_1_0_0_1 (broadcastInDim S80000x64 ![] bcast_S_S80000x64 (constant S_ .f32 0x00000000#32)) (broadcastInDim S2000000x1 ![0] bcast_S2000000_S2000000x1_0 ((launchContents m c) (Proc.devRef .tc main_arg14))) (mulf (broadcastInDim S2000000x64 ![0, 1] bcast_S2000000x1_S2000000x64_0_1 (broadcastInDim S2000000x1 ![0] bcast_S2000000_S2000000x1_0 ((launchContents m c) (Proc.devRef .tc main_arg15)))) (Host.gather gather_S150000x64_S2000000x1_S2000000x64_1_0_n_n_0_1_164 ((launchContents m c) (Proc.devRef .tc main_arg4)) (broadcastInDim S2000000x1 ![0] bcast_S2000000_S2000000x1_0 (select (cmpi .slt ((launchContents m c) (Proc.devRef .tc main_arg13)) (broadcastInDim S2000000 ![] bcast_S_S2000000 (constantI S_ 32 0#32))) (addi ((launchContents m c) (Proc.devRef .tc main_arg13)) (broadcastInDim S2000000 ![] bcast_S_S2000000 (constantI S_ 32 150000#32))) ((launchContents m c) (Proc.devRef .tc main_arg13))))))
      ∧ r.2.mem ((c.tc : Thread nD τ).loc main_v38) = Host.scatterAdd (F := Ideal) scatter_S150000x64_S2000000x1_S2000000x64_1_0_0_1 (broadcastInDim S150000x64 ![] bcast_S_S150000x64 (constant S_ .f32 0x00000000#32)) (broadcastInDim S2000000x1 ![0] bcast_S2000000_S2000000x1_0 ((launchContents m c) (Proc.devRef .tc main_arg16))) (mulf (broadcastInDim S2000000x64 ![0, 1] bcast_S2000000x1_S2000000x64_0_1 (broadcastInDim S2000000x1 ![0] bcast_S2000000_S2000000x1_0 ((launchContents m c) (Proc.devRef .tc main_arg18)))) (Host.gather gather_S80000x64_S2000000x1_S2000000x64_1_0_n_n_0_1_164 ((launchContents m c) (Proc.devRef .tc main_arg7)) (broadcastInDim S2000000x1 ![0] bcast_S2000000_S2000000x1_0 (select (cmpi .slt ((launchContents m c) (Proc.devRef .tc main_arg17)) (broadcastInDim S2000000 ![] bcast_S_S2000000 (constantI S_ 32 0#32))) (addi ((launchContents m c) (Proc.devRef .tc main_arg17)) (broadcastInDim S2000000 ![] bcast_S_S2000000 (constantI S_ 32 80000#32))) ((launchContents m c) (Proc.devRef .tc main_arg17))))))
      ∧ r.2.mem ((c.tc : Thread nD τ).loc main_v90) = Host.scatterAdd (F := Ideal) scatter_S80000x64_S2000000x1_S2000000x64_1_0_0_1 (broadcastInDim S80000x64 ![] bcast_S_S80000x64 (constant S_ .f32 0x00000000#32)) (broadcastInDim S2000000x1 ![0] bcast_S2000000_S2000000x1_0 ((launchContents m c) (Proc.devRef .tc main_arg17))) (mulf (broadcastInDim S2000000x64 ![0, 1] bcast_S2000000x1_S2000000x64_0_1 (broadcastInDim S2000000x1 ![0] bcast_S2000000_S2000000x1_0 ((launchContents m c) (Proc.devRef .tc main_arg18)))) (Host.gather gather_S150000x64_S2000000x1_S2000000x64_1_0_n_n_0_1_164 ((launchContents m c) (Proc.devRef .tc main_arg6)) (broadcastInDim S2000000x1 ![0] bcast_S2000000_S2000000x1_0 (select (cmpi .slt ((launchContents m c) (Proc.devRef .tc main_arg16)) (broadcastInDim S2000000 ![] bcast_S_S2000000 (constantI S_ 32 0#32))) (addi ((launchContents m c) (Proc.devRef .tc main_arg16)) (broadcastInDim S2000000 ![] bcast_S_S2000000 (constantI S_ 32 150000#32))) ((launchContents m c) (Proc.devRef .tc main_arg16))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    ⟨(h c).1.trans (proj_read _ _), (h c).2.1.trans (proj_read _ _), (h c).2.2.1.trans (normed_read _),
     (h c).2.2.2.1.trans (normed_read _), (h c).2.2.2.2⟩) (Value.run m ρ)

end Cert.ReferenceIdeal.RefValue

end
-- ==== Proof.KI.R0Val.lean ====
import proofs.«172980_j39402029973982_1_alg».proof.Proof.KI.R0
import Idealize.ShloMosaic.Lib.Pipeline.Value

noncomputable section

namespace Cert.KernelIdeal.Hand

open Gen Idealize.ShloMosaic Idealize.ShloMosaic.TcCoe

variable {F : FTy → Type} [FloatOps F]

theorem hz0_r2 : (![0, 0] : Fin 2 → Nat) = fun _ => 0 := funext fun a => by fin_cases a <;> rfl
theorem hz0_r3 : (![0, 0, 0] : Fin 3 → Nat) = fun _ => 0 := funext fun a => by fin_cases a <;> rfl

variable (V : (c : Dev nD) → (b : Ref sig .tc) → Buf (Elt F) ((c : Thread nD τ).loc b)) (c : Dev nD)

/-- The first point leaves the logistic payload of the two input blocks, and the sum-of-squares payload over zero (the reset read back). -/
theorem kernelRun0_A_pay (t : Fin cfg0.N) (h0 : t.val = 0) :
    (kernelRun0_A_at V c t h0).1 = (k0_pay3 (iblk0 V c 0 t) (iblk0 V c 1 t), k0_pay4 (iblk0 V c 0 t) (k0_pay1 (F := F))) := by
  unfold kernelRun0_A_at kernelRun0_A
  dsimp only
  sl_unfold_words
  rw [View.canon_cons_unit_zero hz0_r2, View.canon_cons_unit_zero hz0_r2, View.readCov_unit_zero (S := S4x64) _ hz0_r2]
  simp only [View.readAt_eq_ld, (hs0_0 t).read_unread, (hs0_1 t).read_unread, View.ld_unit_zero (S := S4x5000x64) hz0_r3, View.ld_unit_zero (S := S64x64) hz0_r2, View.ld_unit_zero (S := S4x64) hz0_r2]

/-- A later point leaves the logistic payload of the two input blocks, and the sum-of-squares payload over the accumulator's contents. -/
theorem kernelRun0_B_pay (t : Fin cfg0.N) (h0 : t.val ≠ 0) (xo3 : Vec F S4x64 .f32) :
    (kernelRun0_B_at V c t h0 xo3).1 = (k0_pay3 (iblk0 V c 0 t) (iblk0 V c 1 t), k0_pay4 (iblk0 V c 0 t) xo3) := by
  unfold kernelRun0_B_at kernelRun0_B
  dsimp only
  rw [View.canon_cons_unit_zero hz0_r2, View.canon_cons_unit_zero hz0_r2]
  simp only [View.readAt_eq_ld, (hs0_0 t).read_unread, (hs0_1 t).read_unread, (hs0_3 t).read_unread, View.ld_unit_zero (S := S4x5000x64) hz0_r3, View.ld_unit_zero (S := S64x64) hz0_r2, View.ld_unit_zero (S := S4x64) hz0_r2]

/-- The row block's output after point `t`: the logistic of the mean times the weights, of that point's blocks. -/
theorem after0_2_pay (t : Fin cfg0.N) : (dat0 V c).after 2 t = k0_pay3 (iblk0 V c 0 t) (iblk0 V c 1 t) := by
  obtain ⟨_ | n, hn⟩ := t <;> simp only [dat0, outsAt0, kernelRun0_A_pay, kernelRun0_B_pay]

/-- The accumulator after the first point: the block's sum of squares added to zero. -/
theorem after0_3_zero (h : 0 < cfg0.N) : (dat0 V c).after 3 ⟨0, h⟩ = k0_pay4 (iblk0 V c 0 ⟨0, h⟩) (k0_pay1 (F := F)) := by
  simp only [dat0, outsAt0, kernelRun0_A_pay]

/-- The accumulator after a later point: the block's sum of squares added to what the point before left. -/
theorem after0_3_succ (n : ℕ) (hn : n + 1 < cfg0.N) :
    (dat0 V c).after 3 ⟨n + 1, hn⟩ = k0_pay4 (iblk0 V c 0 ⟨n + 1, hn⟩) ((dat0 V c).after 3 ⟨n, Nat.lt_of_succ_lt hn⟩) := by
  simp only [dat0, outsAt0, kernelRun0_B_pay]

end Cert.KernelIdeal.Hand

end
-- ==== Proof.KI.R1Val.lean ====
import proofs.«172980_j39402029973982_1_alg».proof.Proof.KI.R1
import Idealize.ShloMosaic.Lib.Pipeline.Value

noncomputable section

namespace Cert.KernelIdeal.Hand

open Gen Idealize.ShloMosaic Idealize.ShloMosaic.TcCoe

variable {F : FTy → Type} [FloatOps F]

theorem hz1_r2 : (![0, 0] : Fin 2 → Nat) = fun _ => 0 := funext fun a => by fin_cases a <;> rfl
theorem hz1_r3 : (![0, 0, 0] : Fin 3 → Nat) = fun _ => 0 := funext fun a => by fin_cases a <;> rfl

variable (V : (c : Dev nD) → (b : Ref sig .tc) → Buf (Elt F) ((c : Thread nD τ).loc b)) (c : Dev nD)

/-- The first point leaves the logistic payload of the two input blocks, and the sum-of-squares payload over zero (the reset read back). -/
theorem kernelRun1_A_pay (t : Fin cfg1.N) (h0 : t.val = 0) :
    (kernelRun1_A_at V c t h0).1 = (k1_pay3 (iblk1 V c 0 t) (iblk1 V c 1 t), k1_pay4 (iblk1 V c 0 t) (k1_pay1 (F := F))) := by
  unfold kernelRun1_A_at kernelRun1_A
  dsimp only
  sl_unfold_words
  rw [View.canon_cons_unit_zero hz1_r2, View.canon_cons_unit_zero hz1_r2, View.readCov_unit_zero (S := S4x64) _ hz1_r2]
  simp only [View.readAt_eq_ld, (hs1_0 t).read_unread, (hs1_1 t).read_unread, View.ld_unit_zero (S := S4x2000x64) hz1_r3, View.ld_unit_zero (S := S64x64) hz1_r2, View.ld_unit_zero (S := S4x64) hz1_r2]

/-- A later point leaves the logistic payload of the two input blocks, and the sum-of-squares payload over the accumulator's contents. -/
theorem kernelRun1_B_pay (t : Fin cfg1.N) (h0 : t.val ≠ 0) (xo3 : Vec F S4x64 .f32) :
    (kernelRun1_B_at V c t h0 xo3).1 = (k1_pay3 (iblk1 V c 0 t) (iblk1 V c 1 t), k1_pay4 (iblk1 V c 0 t) xo3) := by
  unfold kernelRun1_B_at kernelRun1_B
  dsimp only
  rw [View.canon_cons_unit_zero hz1_r2, View.canon_cons_unit_zero hz1_r2]
  simp only [View.readAt_eq_ld, (hs1_0 t).read_unread, (hs1_1 t).read_unread, (hs1_3 t).read_unread, View.ld_unit_zero (S := S4x2000x64) hz1_r3, View.ld_unit_zero (S := S64x64) hz1_r2, View.ld_unit_zero (S := S4x64) hz1_r2]

/-- The row block's output after point `t`: the logistic of the mean times the weights, of that point's blocks. -/
theorem after1_2_pay (t : Fin cfg1.N) : (dat1 V c).after 2 t = k1_pay3 (iblk1 V c 0 t) (iblk1 V c 1 t) := by
  obtain ⟨_ | n, hn⟩ := t <;> simp only [dat1, outsAt1, kernelRun1_A_pay, kernelRun1_B_pay]

/-- The accumulator after the first point: the block's sum of squares added to zero. -/
theorem after1_3_zero (h : 0 < cfg1.N) : (dat1 V c).after 3 ⟨0, h⟩ = k1_pay4 (iblk1 V c 0 ⟨0, h⟩) (k1_pay1 (F := F)) := by
  simp only [dat1, outsAt1, kernelRun1_A_pay]

/-- The accumulator after a later point: the block's sum of squares added to what the point before left. -/
theorem after1_3_succ (n : ℕ) (hn : n + 1 < cfg1.N) :
    (dat1 V c).after 3 ⟨n + 1, hn⟩ = k1_pay4 (iblk1 V c 0 ⟨n + 1, hn⟩) ((dat1 V c).after 3 ⟨n, Nat.lt_of_succ_lt hn⟩) := by
  simp only [dat1, outsAt1, kernelRun1_B_pay]

end Cert.KernelIdeal.Hand

end
-- ==== Proof.KI.Val0Alg.lean ====
import Mathlib.Algebra.BigOperators.Fin

namespace Cert.KernelIdeal.Hand.Alg

-- A running total is the sum of the terms so far.
theorem chain_eq_sum {M : Type*} [AddCommMonoid M] (N : ℕ) (B a : (t : ℕ) → t < N → M)
    (h0 : ∀ h : 0 < N, a 0 h = B 0 h)
    (hs : ∀ (n : ℕ) (h : n + 1 < N), a (n + 1) h = a n (Nat.lt_of_succ_lt h) + B (n + 1) h) :
    ∀ (n : ℕ) (h : n < N), a n h = ∑ t : Fin (n + 1), B t.val (lt_of_le_of_lt (Nat.le_of_lt_succ t.isLt) h)
  | 0, h => by
    rw [Fin.sum_univ_one]
    exact h0 h
  | n + 1, h => by
    rw [Fin.sum_univ_castSucc, hs n h, chain_eq_sum N B a h0 hs n (Nat.lt_of_succ_lt h)]
    rfl

-- Two indices of rank three are equal when their three coordinates are.
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

end Cert.KernelIdeal.Hand.Alg
-- ==== Proof.KI.Val0.lean ====
import proofs.«172980_j39402029973982_1_alg».proof.Proof.KI.R0
import proofs.«172980_j39402029973982_1_alg».proof.Proof.Spec
import proofs.«172980_j39402029973982_1_alg».proof.Proof.KI.Val0Alg
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

section
variable (V : (c : Dev nD) → (b : Ref sig .tc) → Buf (Elt Ideal) ((c : Thread nD τ).loc b)) (c : Dev nD)

-- A product into the zero accumulator is the sum over the contracted axis of the entries' products.
theorem mm0_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply, ← Equiv.sum_comp (contrEquiv1 _ 64 rfl rfl).symm]
  exact Finset.sum_congr rfl fun k _ => congrArg₂ (a · * b ·) (Shape.idx_ext₂ rfl rfl) (Shape.idx_ext₂ rfl rfl)

-- The first payload: a change of float format is the identity, and a reduction over one axis is a sum.
theorem pay0_3_apply (x : Vec Ideal S4x5000x64 .f32) (w : Vec Ideal S64x64 .f32) (p : Fin 5000) (q : Fin 64) :
    k0_pay3 (F := Ideal) x w (ix2 p q)
      = Ideal.logistic (∑ k : Fin 64, Ideal.div (∑ j : Fin 4, x (ix3 j p k)) Cert.Spec.four * w (ix2 k q)) := by
  unfold k0_pay3 k0_pay2
  dsimp only
  refine (congrArg Ideal.logistic (mm0_apply _ _ p q)).trans (congrArg Ideal.logistic (Finset.sum_congr rfl fun k _ => ?_))
  refine congrArg (Ideal.div · Cert.Spec.four * w (ix2 k q)) ?_
  rw [shapeCast_self]
  exact (Ideal.multiReduction_add_single x _ _ _ _ _).trans
    (Finset.sum_congr rfl fun j _ => congrArg x (Alg.idx_ext₃ rfl rfl rfl))

theorem pay0_4_apply (x : Vec Ideal S4x5000x64 .f32) (prev : Vec Ideal S4x64 .f32) (j : Fin 4) (d : Fin 64) :
    k0_pay4 (F := Ideal) x prev (ix2 j d) = prev (ix2 j d) + ∑ y : Fin 5000, x (ix3 j y d) * x (ix3 j y d) := by
  unfold k0_pay4 k0_pay2
  dsimp only
  rw [shapeCast_self, shapeCast_self]
  exact congrArg (prev (ix2 j d) + ·) ((Ideal.multiReduction_add_single (mulf x x) _ _ _ _ _).trans
    (Finset.sum_congr rfl fun y _ => congrArg (fun i => x i * x i) (Alg.idx_ext₃ rfl rfl rfl)))

theorem idx_facts0 : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

-- Row p of point t's block, as a row of the array.
def rowOf0 (t : Fin cfg0.N) (p : Fin 5000) : Fin 150000 := (finProdFinEquiv (t.cast N_0, p) : Fin (30 * 5000))

abbrev xarr0 : Vec Ideal S4x150000x64 .f32 := V c main_v108
abbrev warr0 : Vec Ideal S64x64 .f32 := V c main_arg8

theorem xblk0_eq (t : Fin cfg0.N) :
    (iblk0 V c 0 t : Vec Ideal S4x5000x64 .f32) = fun i => xarr0 V c (ix3 (i 0) (rowOf0 t (i 1)) (i 2)) := by
  obtain ⟨e0, e1, e2, -⟩ := idx_facts0 t
  funext i
  show V c main_v108 (((cfg0.win 0).blk t).view.emb i) = _
  exact congrArg (V c main_v108) (Alg.idx_ext₃ (win0_0.rect_emb_val_of_index_zero t 0 e0 i)
    ((win0_0.rect_emb_val t i 1).trans (by rw [e1, Nat.add_comm, Nat.mul_comm]; rfl)) (win0_0.rect_emb_val_of_index_zero t 2 e2 i))

theorem wblk0_eq (t : Fin cfg0.N) : (iblk0 V c 1 t : Vec Ideal S64x64 .f32) = warr0 V c := by
  obtain ⟨-, -, -, e0, e1, -⟩ := idx_facts0 t
  funext i
  show V c main_arg8 (((cfg0.win 1).blk t).view.emb i) = _
  exact congrArg (V c main_arg8) (Shape.idx_ext₂ (win0_1.rect_emb_val_of_index_zero t 0 e0 i) (win0_1.rect_emb_val_of_index_zero t 1 e1 i))

theorem cover0_2_emb (t : Fin cfg0.N) (p : Fin 5000) (q : Fin 64) :
    ((cfg0.win 2).blk t).view.emb (ix2 p q) = (ix2 (rowOf0 t p) q : S150000x64.Idx) := by
  obtain ⟨-, -, -, -, -, e0, e1, -⟩ := idx_facts0 t
  exact Shape.idx_ext₂ ((win0_2.rect_emb_val t _ 0).trans (by rw [e0, Nat.add_comm, Nat.mul_comm]; rfl))
    (win0_2.rect_emb_val_of_index_zero t 1 e1 _)

theorem cover0_3_emb (t : Fin cfg0.N) (i : S4x64.Idx) : ((cfg0.win 3).blk t).view.emb i = i := by
  obtain ⟨-, -, -, -, -, -, -, e0, e1⟩ := idx_facts0 t
  exact Shape.idx_ext₂ (win0_3.rect_emb_val_of_index_zero t 0 e0 i) (win0_3.rect_emb_val_of_index_zero t 1 e1 i)

-- Every row lies in the block of the point its number divided by the block's height names.
theorem cover0_2 (i : S150000x64.Idx) : ∃ t : Fin cfg0.N, (cfg0.win 2).flush t = true ∧ i ∈ ((cfg0.win 2).blk t).view.set := by
  obtain ⟨r, q, rfl⟩ : ∃ (r : Fin (30 * 5000)) (q : Fin 64), i = ix2 r q := ⟨i 0, i 1, eq_ix2 i⟩
  obtain ⟨x, rfl⟩ := finProdFinEquiv.surjective r
  have h := View.emb_mem_set ((cfg0.win 2).blk (x.1.cast N_0.symm)).view (ix2 x.2 q)
  rw [cover0_2_emb] at h
  exact ⟨_, flush0_2 _, h⟩

theorem arr2_0_eq
    (h2 : ∀ t : Fin cfg0.N, (dat0 V c).after 2 t = k0_pay3 (F := Ideal) (iblk0 V c 0 t) (iblk0 V c 1 t)) :
    ((dat0 V c).arrAt 2 cfg0.N : (⟨2, ![150000, 64]⟩ : Shape).Idx → Ideal .f32) = Cert.Spec.proj (n := 150000) (V c main_v108) (V c main_arg8) :=
  (dat0 V c).arrAt_eq_of_cover 2 _ (fun t _ => by
    show (cfg0.win 2).cut (grid0.coords t) ((dat0 V c).after 2 t) = _
    rw [h2 t]
    funext y
    obtain ⟨p, q, rfl⟩ : ∃ (p : Fin 5000) (q : Fin 64), y = ix2 p q := ⟨y 0, y 1, eq_ix2 y⟩
    show k0_pay3 (F := Ideal) (iblk0 V c 0 t) (iblk0 V c 1 t) (ix2 p q) = Cert.Spec.proj (n := 150000) (xarr0 V c) (warr0 V c) (((cfg0.win 2).blk t).view.emb (ix2 p q))
    rw [xblk0_eq, wblk0_eq, pay0_3_apply, cover0_2_emb]
    rfl) cover0_2

-- The sum over point t's block of rows of the squares.
def blockSq0 (t : ℕ) (ht : t < cfg0.N) (j : Fin 4) (d : Fin 64) : Ideal .f32 :=
  ∑ y : Fin 5000, xarr0 V c (ix3 j (rowOf0 ⟨t, ht⟩ y) d) * xarr0 V c (ix3 j (rowOf0 ⟨t, ht⟩ y) d)

theorem cover0_3 (i : S4x64.Idx) : ∃ t : Fin cfg0.N, (cfg0.win 3).flush t = true ∧ i ∈ ((cfg0.win 3).blk t).view.set := by
  have h (t : Fin cfg0.N) : i ∈ ((cfg0.win 3).blk t).view.set := by
    have := View.emb_mem_set ((cfg0.win 3).blk t).view i
    rwa [cover0_3_emb] at this
  exact ⟨⟨29, lt_of_lt_of_eq (by decide) N_0.symm⟩, (flush0_3 _).mpr rfl, h _⟩

section
variable (h3z : ∀ h : 0 < cfg0.N, (dat0 V c).after 3 ⟨0, h⟩ = k0_pay4 (F := Ideal) (iblk0 V c 0 ⟨0, h⟩) (k0_pay1 (F := Ideal)))
    (h3s : ∀ (n : ℕ) (hn : n + 1 < cfg0.N), (dat0 V c).after 3 ⟨n + 1, hn⟩ = k0_pay4 (F := Ideal) (iblk0 V c 0 ⟨n + 1, hn⟩) ((dat0 V c).after 3 ⟨n, Nat.lt_of_succ_lt hn⟩))
include h3z h3s

-- After point n the accumulator holds the sum over the blocks 0, ..., n: induction on the point.
theorem acc0_eq (j : Fin 4) (d : Fin 64) (n : ℕ) (hn : n < cfg0.N) :
    ((dat0 V c).after 3 ⟨n, hn⟩ : Vec Ideal S4x64 .f32) (ix2 j d)
      = ∑ t : Fin (n + 1), blockSq0 V c t.val (lt_of_le_of_lt (Nat.le_of_lt_succ t.isLt) hn) j d :=
  Alg.chain_eq_sum cfg0.N (fun t ht => blockSq0 V c t ht j d) (fun n hn => ((dat0 V c).after 3 ⟨n, hn⟩ : Vec Ideal S4x64 .f32) (ix2 j d))
    (fun h => by
      rw [h3z h, xblk0_eq, pay0_4_apply, show k0_pay1 (F := Ideal) (ix2 j d) = 0 from Ideal.ofBits_zero_f32, zero_add]
      rfl)
    (fun n hn => by
      rw [h3s n hn, xblk0_eq, pay0_4_apply]
      rfl) n hn

theorem arr3_0_eq :
    ((dat0 V c).arrAt 3 cfg0.N : (⟨2, ![4, 64]⟩ : Shape).Idx → Ideal .f32) = Cert.Spec.sumsq (n := 150000) (V c main_v108) :=
  (dat0 V c).arrAt_eq_of_cover 3 _ (fun t hf => by
    generalize hG : Cert.Spec.sumsq (n := 150000) (V c main_v108) = G
    show (cfg0.win 3).cut (grid0.coords t) ((dat0 V c).after 3 t) = _
    funext y
    obtain ⟨j, d, rfl⟩ : ∃ (j : Fin 4) (d : Fin 64), y = ix2 j d := ⟨y 0, y 1, eq_ix2 y⟩
    show ((dat0 V c).after 3 ⟨t.val, t.isLt⟩ : Vec Ideal S4x64 .f32) (ix2 j d) = (G : Vec Ideal S4x64 .f32) (((cfg0.win 3).blk t).view.emb (ix2 j d))
    rw [cover0_3_emb, acc0_eq V c h3z h3s, ← hG]
    obtain ⟨n, hn⟩ := t
    have h : n % 30 = 29 := (flush0_3 ⟨n, hn⟩).mp hf
    obtain rfl : n = 29 := by have := lt_of_lt_of_eq hn N_0; omega
    exact (Fintype.sum_prod_type _).symm.trans (Equiv.sum_comp finProdFinEquiv fun r : Fin (30 * 5000) => xarr0 V c (ix3 j r d) * xarr0 V c (ix3 j r d))) cover0_3

end

end

end Cert.KernelIdeal.Hand

end
-- ==== Proof.KI.Val1.lean ====
import proofs.«172980_j39402029973982_1_alg».proof.Proof.KI.R1
import proofs.«172980_j39402029973982_1_alg».proof.Proof.Spec
import proofs.«172980_j39402029973982_1_alg».proof.Proof.KI.Val0Alg
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

section
variable (V : (c : Dev nD) → (b : Ref sig .tc) → Buf (Elt Ideal) ((c : Thread nD τ).loc b)) (c : Dev nD)

-- A product into the zero accumulator is the sum over the contracted axis of the entries' products.
theorem mm1_apply (a : FVec Ideal S2000x64 .bf16) (b : FVec Ideal S64x64 .bf16) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply, ← Equiv.sum_comp (contrEquiv1 _ 64 rfl rfl).symm]
  exact Finset.sum_congr rfl fun k _ => congrArg₂ (a · * b ·) (Shape.idx_ext₂ rfl rfl) (Shape.idx_ext₂ rfl rfl)

-- The first payload: a change of float format is the identity, and a reduction over one axis is a sum.
theorem pay1_3_apply (x : Vec Ideal S4x2000x64 .f32) (w : Vec Ideal S64x64 .f32) (p : Fin 2000) (q : Fin 64) :
    k1_pay3 (F := Ideal) x w (ix2 p q)
      = Ideal.logistic (∑ k : Fin 64, Ideal.div (∑ j : Fin 4, x (ix3 j p k)) Cert.Spec.four * w (ix2 k q)) := by
  unfold k1_pay3 k1_pay2
  dsimp only
  refine (congrArg Ideal.logistic (mm1_apply _ _ p q)).trans (congrArg Ideal.logistic (Finset.sum_congr rfl fun k _ => ?_))
  refine congrArg (Ideal.div · Cert.Spec.four * w (ix2 k q)) ?_
  rw [shapeCast_self]
  exact (Ideal.multiReduction_add_single x _ _ _ _ _).trans
    (Finset.sum_congr rfl fun j _ => congrArg x (Alg.idx_ext₃ rfl rfl rfl))

theorem pay1_4_apply (x : Vec Ideal S4x2000x64 .f32) (prev : Vec Ideal S4x64 .f32) (j : Fin 4) (d : Fin 64) :
    k1_pay4 (F := Ideal) x prev (ix2 j d) = prev (ix2 j d) + ∑ y : Fin 2000, x (ix3 j y d) * x (ix3 j y d) := by
  unfold k1_pay4 k1_pay2
  dsimp only
  rw [shapeCast_self, shapeCast_self]
  exact congrArg (prev (ix2 j d) + ·) ((Ideal.multiReduction_add_single (mulf x x) _ _ _ _ _).trans
    (Finset.sum_congr rfl fun y _ => congrArg (fun i => x i * x i) (Alg.idx_ext₃ rfl rfl rfl)))

theorem idx_facts1 : ∀ t : Fin cfg1.N, win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

-- Row p of point t's block, as a row of the array.
def rowOf1 (t : Fin cfg1.N) (p : Fin 2000) : Fin 80000 := (finProdFinEquiv (t.cast N_1, p) : Fin (40 * 2000))

abbrev xarr1 : Vec Ideal S4x80000x64 .f32 := V c main_v113
abbrev warr1 : Vec Ideal S64x64 .f32 := V c main_arg9

theorem xblk1_eq (t : Fin cfg1.N) :
    (iblk1 V c 0 t : Vec Ideal S4x2000x64 .f32) = fun i => xarr1 V c (ix3 (i 0) (rowOf1 t (i 1)) (i 2)) := by
  obtain ⟨e0, e1, e2, -⟩ := idx_facts1 t
  funext i
  show V c main_v113 (((cfg1.win 0).blk t).view.emb i) = _
  exact congrArg (V c main_v113) (Alg.idx_ext₃ (win1_0.rect_emb_val_of_index_zero t 0 e0 i)
    ((win1_0.rect_emb_val t i 1).trans (by rw [e1, Nat.add_comm, Nat.mul_comm]; rfl)) (win1_0.rect_emb_val_of_index_zero t 2 e2 i))

theorem wblk1_eq (t : Fin cfg1.N) : (iblk1 V c 1 t : Vec Ideal S64x64 .f32) = warr1 V c := by
  obtain ⟨-, -, -, e0, e1, -⟩ := idx_facts1 t
  funext i
  show V c main_arg9 (((cfg1.win 1).blk t).view.emb i) = _
  exact congrArg (V c main_arg9) (Shape.idx_ext₂ (win1_1.rect_emb_val_of_index_zero t 0 e0 i) (win1_1.rect_emb_val_of_index_zero t 1 e1 i))

theorem cover1_2_emb (t : Fin cfg1.N) (p : Fin 2000) (q : Fin 64) :
    ((cfg1.win 2).blk t).view.emb (ix2 p q) = (ix2 (rowOf1 t p) q : S80000x64.Idx) := by
  obtain ⟨-, -, -, -, -, e0, e1, -⟩ := idx_facts1 t
  exact Shape.idx_ext₂ ((win1_2.rect_emb_val t _ 0).trans (by rw [e0, Nat.add_comm, Nat.mul_comm]; rfl))
    (win1_2.rect_emb_val_of_index_zero t 1 e1 _)

theorem cover1_3_emb (t : Fin cfg1.N) (i : S4x64.Idx) : ((cfg1.win 3).blk t).view.emb i = i := by
  obtain ⟨-, -, -, -, -, -, -, e0, e1⟩ := idx_facts1 t
  exact Shape.idx_ext₂ (win1_3.rect_emb_val_of_index_zero t 0 e0 i) (win1_3.rect_emb_val_of_index_zero t 1 e1 i)

-- Every row lies in the block of the point its number divided by the block's height names.
theorem cover1_2 (i : S80000x64.Idx) : ∃ t : Fin cfg1.N, (cfg1.win 2).flush t = true ∧ i ∈ ((cfg1.win 2).blk t).view.set := by
  obtain ⟨r, q, rfl⟩ : ∃ (r : Fin (40 * 2000)) (q : Fin 64), i = ix2 r q := ⟨i 0, i 1, eq_ix2 i⟩
  obtain ⟨x, rfl⟩ := finProdFinEquiv.surjective r
  have h := View.emb_mem_set ((cfg1.win 2).blk (x.1.cast N_1.symm)).view (ix2 x.2 q)
  rw [cover1_2_emb] at h
  exact ⟨_, flush1_2 _, h⟩

theorem arr2_1_eq
    (h2 : ∀ t : Fin cfg1.N, (dat1 V c).after 2 t = k1_pay3 (F := Ideal) (iblk1 V c 0 t) (iblk1 V c 1 t)) :
    ((dat1 V c).arrAt 2 cfg1.N : (⟨2, ![80000, 64]⟩ : Shape).Idx → Ideal .f32) = Cert.Spec.proj (n := 80000) (V c main_v113) (V c main_arg9) :=
  (dat1 V c).arrAt_eq_of_cover 2 _ (fun t _ => by
    show (cfg1.win 2).cut (grid1.coords t) ((dat1 V c).after 2 t) = _
    rw [h2 t]
    funext y
    obtain ⟨p, q, rfl⟩ : ∃ (p : Fin 2000) (q : Fin 64), y = ix2 p q := ⟨y 0, y 1, eq_ix2 y⟩
    show k1_pay3 (F := Ideal) (iblk1 V c 0 t) (iblk1 V c 1 t) (ix2 p q) = Cert.Spec.proj (n := 80000) (xarr1 V c) (warr1 V c) (((cfg1.win 2).blk t).view.emb (ix2 p q))
    rw [xblk1_eq, wblk1_eq, pay1_3_apply, cover1_2_emb]
    rfl) cover1_2

-- The sum over point t's block of rows of the squares.
def blockSq1 (t : ℕ) (ht : t < cfg1.N) (j : Fin 4) (d : Fin 64) : Ideal .f32 :=
  ∑ y : Fin 2000, xarr1 V c (ix3 j (rowOf1 ⟨t, ht⟩ y) d) * xarr1 V c (ix3 j (rowOf1 ⟨t, ht⟩ y) d)

theorem cover1_3 (i : S4x64.Idx) : ∃ t : Fin cfg1.N, (cfg1.win 3).flush t = true ∧ i ∈ ((cfg1.win 3).blk t).view.set := by
  have h (t : Fin cfg1.N) : i ∈ ((cfg1.win 3).blk t).view.set := by
    have := View.emb_mem_set ((cfg1.win 3).blk t).view i
    rwa [cover1_3_emb] at this
  exact ⟨⟨39, lt_of_lt_of_eq (by decide) N_1.symm⟩, (flush1_3 _).mpr rfl, h _⟩

section
variable (h3z : ∀ h : 0 < cfg1.N, (dat1 V c).after 3 ⟨0, h⟩ = k1_pay4 (F := Ideal) (iblk1 V c 0 ⟨0, h⟩) (k1_pay1 (F := Ideal)))
    (h3s : ∀ (n : ℕ) (hn : n + 1 < cfg1.N), (dat1 V c).after 3 ⟨n + 1, hn⟩ = k1_pay4 (F := Ideal) (iblk1 V c 0 ⟨n + 1, hn⟩) ((dat1 V c).after 3 ⟨n, Nat.lt_of_succ_lt hn⟩))
include h3z h3s

-- After point n the accumulator holds the sum over the blocks 0, ..., n: induction on the point.
theorem acc1_eq (j : Fin 4) (d : Fin 64) (n : ℕ) (hn : n < cfg1.N) :
    ((dat1 V c).after 3 ⟨n, hn⟩ : Vec Ideal S4x64 .f32) (ix2 j d)
      = ∑ t : Fin (n + 1), blockSq1 V c t.val (lt_of_le_of_lt (Nat.le_of_lt_succ t.isLt) hn) j d :=
  Alg.chain_eq_sum cfg1.N (fun t ht => blockSq1 V c t ht j d) (fun n hn => ((dat1 V c).after 3 ⟨n, hn⟩ : Vec Ideal S4x64 .f32) (ix2 j d))
    (fun h => by
      rw [h3z h, xblk1_eq, pay1_4_apply, show k1_pay1 (F := Ideal) (ix2 j d) = 0 from Ideal.ofBits_zero_f32, zero_add]
      rfl)
    (fun n hn => by
      rw [h3s n hn, xblk1_eq, pay1_4_apply]
      rfl) n hn

theorem arr3_1_eq :
    ((dat1 V c).arrAt 3 cfg1.N : (⟨2, ![4, 64]⟩ : Shape).Idx → Ideal .f32) = Cert.Spec.sumsq (n := 80000) (V c main_v113) :=
  (dat1 V c).arrAt_eq_of_cover 3 _ (fun t hf => by
    generalize hG : Cert.Spec.sumsq (n := 80000) (V c main_v113) = G
    show (cfg1.win 3).cut (grid1.coords t) ((dat1 V c).after 3 t) = _
    funext y
    obtain ⟨j, d, rfl⟩ : ∃ (j : Fin 4) (d : Fin 64), y = ix2 j d := ⟨y 0, y 1, eq_ix2 y⟩
    show ((dat1 V c).after 3 ⟨t.val, t.isLt⟩ : Vec Ideal S4x64 .f32) (ix2 j d) = (G : Vec Ideal S4x64 .f32) (((cfg1.win 3).blk t).view.emb (ix2 j d))
    rw [cover1_3_emb, acc1_eq V c h3z h3s, ← hG]
    obtain ⟨n, hn⟩ := t
    have h : n % 40 = 39 := (flush1_3 ⟨n, hn⟩).mp hf
    obtain rfl : n = 39 := by have := lt_of_lt_of_eq hn N_1; omega
    exact (Fintype.sum_prod_type _).symm.trans (Equiv.sum_comp finProdFinEquiv fun r : Fin (40 * 2000) => xarr1 V c (ix3 j r d) * xarr1 V c (ix3 j r d))) cover1_3

end

end

end Cert.KernelIdeal.Hand

end
-- ==== Proof.KI.HostVal.lean ====
import proofs.«172980_j39402029973982_1_alg».proof.Proof.KI.Args
import proofs.«172980_j39402029973982_1_alg».proof.Proof.Spec
import Idealize.ShloMosaic.Lib.StableHlo.Run
import Idealize.ShloMosaic.Lib.IdealHost
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable {F : FTy → Type} [FloatOps F]

/-- An index array with `n` added to its negative entries. -/
def wrapIdx (n : BitVec 32) (s : (⟨S2000000, .i32⟩ : BufTy).Contents (Elt F)) : (⟨S2000000, .i32⟩ : BufTy).Contents (Elt F) :=
  select (cmpi .slt s (broadcastInDim S2000000 ![] bcast_S_S2000000 (constantI S_ 32 0#32))) (addi s (broadcastInDim S2000000 ![] bcast_S_S2000000 (constantI S_ 32 n))) s

section
variable {D T : Shape} (sc : ScatterDims D S2000000x1 S2000000x64) (bz : S_.BroadcastsInDim D (![] : Fin 0 → Fin D.rank))
  (ga : GatherDims T S2000000x1 S2000000x64) (n : BitVec 32)

/-- The rows of table `t` at indices `i`, each scaled by its weight in the column `w`. -/
def scaled (w : (⟨S2000000x1, .f32⟩ : BufTy).Contents (Elt F)) (t : (⟨T, .f32⟩ : BufTy).Contents (Elt F)) (i : (⟨S2000000, .i32⟩ : BufTy).Contents (Elt F)) :
    (⟨S2000000x64, .f32⟩ : BufTy).Contents (Elt F) :=
  mulf (broadcastInDim S2000000x64 ![0, 1] bcast_S2000000x1_S2000000x64_0_1 w) (Host.gather ga t (broadcastInDim S2000000x1 ![0] bcast_S2000000_S2000000x1_0 i))

/-- The rows `u` added into a zero table at rows `d`. -/
def addInto (d : (⟨S2000000, .i32⟩ : BufTy).Contents (Elt F)) (u : (⟨S2000000x64, .f32⟩ : BufTy).Contents (Elt F)) : (⟨D, .f32⟩ : BufTy).Contents (Elt F) :=
  Host.scatterAdd sc (broadcastInDim D ![] bz (constant S_ .f32 0x00000000#32)) (broadcastInDim S2000000x1 ![0] bcast_S2000000_S2000000x1_0 d) u

/-- A sparse aggregation: gather rows of `t` at the wrapped indices `s`, scale by the weights `w`, add into a zero table at rows `d`. -/
def agg (d s : (⟨S2000000, .i32⟩ : BufTy).Contents (Elt F)) (w : (⟨S2000000, .f32⟩ : BufTy).Contents (Elt F)) (t : (⟨T, .f32⟩ : BufTy).Contents (Elt F)) : (⟨D, .f32⟩ : BufTy).Contents (Elt F) :=
  addInto sc bz d (scaled ga (broadcastInDim S2000000x1 ![0] bcast_S2000000_S2000000x1_0 w) t (wrapIdx n s))

variable {sc bz ga n} in
theorem agg_congr {d d' s s' : (⟨S2000000, .i32⟩ : BufTy).Contents (Elt F)} {w w' : (⟨S2000000, .f32⟩ : BufTy).Contents (Elt F)} {t t' : (⟨T, .f32⟩ : BufTy).Contents (Elt F)}
    (hd : d = d') (hs : s = s') (hw : w = w') (ht : t = t') : agg sc bz ga n d s w t = agg sc bz ga n d' s' w' t' := by
  rw [hd, hs, hw, ht]

end

/-- An aggregation into a table of 150000 rows from a table of 80000 rows, and the other way round. -/
abbrev aggU := agg (F := F) scatter_S150000x64_S2000000x1_S2000000x64_1_0_0_1 bcast_S_S150000x64 gather_S80000x64_S2000000x1_S2000000x64_1_0_n_n_0_1_164 80000#32
abbrev aggI := agg (F := F) scatter_S80000x64_S2000000x1_S2000000x64_1_0_0_1 bcast_S_S80000x64 gather_S150000x64_S2000000x1_S2000000x64_1_0_n_n_0_1_164 150000#32

/-- Four tables stacked along a new leading axis. -/
def stackFnU (a b c d : (⟨S150000x64, .f32⟩ : BufTy).Contents (Elt F)) : (⟨S4x150000x64, .f32⟩ : BufTy).Contents (Elt F) :=
  concatenate S4x150000x64 0 [⟨S1x150000x64, broadcastInDim S1x150000x64 ![1, 2] bcast_S150000x64_S1x150000x64_1_2 a⟩, ⟨S1x150000x64, broadcastInDim S1x150000x64 ![1, 2] bcast_S150000x64_S1x150000x64_1_2 b⟩, ⟨S1x150000x64, broadcastInDim S1x150000x64 ![1, 2] bcast_S150000x64_S1x150000x64_1_2 c⟩, ⟨S1x150000x64, broadcastInDim S1x150000x64 ![1, 2] bcast_S150000x64_S1x150000x64_1_2 d⟩] concatenates_S1x150000x64_S1x150000x64_S1x150000x64_S1x150000x64_S4x150000x64_d0
def stackFnI (a b c d : (⟨S80000x64, .f32⟩ : BufTy).Contents (Elt F)) : (⟨S4x80000x64, .f32⟩ : BufTy).Contents (Elt F) :=
  concatenate S4x80000x64 0 [⟨S1x80000x64, broadcastInDim S1x80000x64 ![1, 2] bcast_S80000x64_S1x80000x64_1_2 a⟩, ⟨S1x80000x64, broadcastInDim S1x80000x64 ![1, 2] bcast_S80000x64_S1x80000x64_1_2 b⟩, ⟨S1x80000x64, broadcastInDim S1x80000x64 ![1, 2] bcast_S80000x64_S1x80000x64_1_2 c⟩, ⟨S1x80000x64, broadcastInDim S1x80000x64 ![1, 2] bcast_S80000x64_S1x80000x64_1_2 d⟩] concatenates_S1x80000x64_S1x80000x64_S1x80000x64_S1x80000x64_S4x80000x64_d0

section
variable (V : Valuation τ sig (Elt F))

def ue0 : (main_v12 : DevRef τ sig).ty.Contents (Elt F) := aggU (V main_arg10) (V main_arg11) (V main_arg12) (V main_arg3)
def ue1 : (main_v25 : DevRef τ sig).ty.Contents (Elt F) := aggU (V main_arg13) (V main_arg14) (V main_arg15) (V main_arg5)
def ue2 : (main_v38 : DevRef τ sig).ty.Contents (Elt F) := aggU (V main_arg16) (V main_arg17) (V main_arg18) (V main_arg7)
def ue3 : (main_v51 : DevRef τ sig).ty.Contents (Elt F) := aggU (V main_arg19) (V main_arg20) (V main_arg21) (V main_arg1)
def ie0 : (main_v64 : DevRef τ sig).ty.Contents (Elt F) := aggI (V main_arg11) (V main_arg10) (V main_arg12) (V main_arg2)
def ie1 : (main_v77 : DevRef τ sig).ty.Contents (Elt F) := aggI (V main_arg14) (V main_arg13) (V main_arg15) (V main_arg4)
def ie2 : (main_v90 : DevRef τ sig).ty.Contents (Elt F) := aggI (V main_arg17) (V main_arg16) (V main_arg18) (V main_arg6)
def ie3 : (main_v103 : DevRef τ sig).ty.Contents (Elt F) := aggI (V main_arg20) (V main_arg19) (V main_arg21) (V main_arg0)
def stackU : (main_v108 : DevRef τ sig).ty.Contents (Elt F) := stackFnU (ue0 V) (ue1 V) (ue2 V) (ue3 V)
def stackI : (main_v113 : DevRef τ sig).ty.Contents (Elt F) := stackFnI (ie0 V) (ie1 V) (ie2 V) (ie3 V)

theorem p0_v12 : after main_part0_ops0 V main_v12 = ue0 V := by
  simp only [main_part0_ops0]; after_results_simp <;> rfl
theorem p0_v25 : after main_part0_ops0 V main_v25 = ue1 V := by
  simp only [main_part0_ops0]; after_results_simp <;> rfl
theorem p0_v38 : after main_part0_ops0 V main_v38 = ue2 V := by
  simp only [main_part0_ops0]; after_results_simp <;> rfl
theorem p0_v48 : after main_part0_ops0 V main_v48 = scaled gather_S80000x64_S2000000x1_S2000000x64_1_0_n_n_0_1_164 (broadcastInDim S2000000x1 ![0] bcast_S2000000_S2000000x1_0 (V main_arg21)) (V main_arg1) (wrapIdx 80000#32 (V main_arg20)) := by
  simp only [main_part0_ops0]; after_results_simp <;> rfl
theorem p1_v51 : after main_part1_ops0 V main_v51 = addInto scatter_S150000x64_S2000000x1_S2000000x64_1_0_0_1 bcast_S_S150000x64 (V main_arg19) (V main_v48) := by
  simp only [main_part1_ops0]; after_results_simp <;> rfl
theorem p1_v64 : after main_part1_ops0 V main_v64 = ie0 V := by
  simp only [main_part1_ops0]; after_results_simp <;> rfl
theorem p1_v77 : after main_part1_ops0 V main_v77 = ie1 V := by
  simp only [main_part1_ops0]; after_results_simp <;> rfl
theorem p1_v90 : after main_part1_ops0 V main_v90 = ie2 V := by
  simp only [main_part1_ops0]; after_results_simp <;> rfl
theorem p1_v91 : after main_part1_ops0 V main_v91 = broadcastInDim S2000000x1 ![0] bcast_S2000000_S2000000x1_0 (V main_arg21) := by
  simp only [main_part1_ops0]; after_results_simp <;> rfl
theorem p1_v96 : after main_part1_ops0 V main_v96 = wrapIdx 150000#32 (V main_arg19) := by
  simp only [main_part1_ops0]; after_results_simp <;> rfl
theorem p2_v108 : after main_part2_ops0 V main_v108 = stackFnU (V main_v12) (V main_v25) (V main_v38) (V main_v51) := by
  simp only [main_part2_ops0]; after_results_simp <;> rfl
theorem p2_v113 : after main_part2_ops0 V main_v113 = stackFnI (V main_v64) (V main_v77) (V main_v90) (addInto scatter_S80000x64_S2000000x1_S2000000x64_1_0_0_1 bcast_S_S80000x64 (V main_arg20) (scaled gather_S150000x64_S2000000x1_S2000000x64_1_0_n_n_0_1_164 (V main_v91) (V main_arg0) (V main_v96))) := by
  simp only [main_part2_ops0]; after_results_simp <;> rfl

end

section
variable (m : (ℓ : Loc nD τ sig) → Buf (Elt F) ℓ) (ρ : Dev nD → PrngReg) (c : Dev nD)

theorem W2_v12 : W2 m ρ c main_v12 = ue0 (W0 m ρ c) := (W2_of m ρ c main_v12 (by decide)).trans (p0_v12 _)
theorem W2_v25 : W2 m ρ c main_v25 = ue1 (W0 m ρ c) := (W2_of m ρ c main_v25 (by decide)).trans (p0_v25 _)
theorem W2_v38 : W2 m ρ c main_v38 = ue2 (W0 m ρ c) := (W2_of m ρ c main_v38 (by decide)).trans (p0_v38 _)
theorem W2_v51 : W2 m ρ c main_v51 = ue3 (W0 m ρ c) := (p1_v51 _).trans (congrArg₂ (addInto _ _) (W1_of m ρ c main_arg19 (by decide)) (p0_v48 _))
theorem W2_v64 : W2 m ρ c main_v64 = ie0 (W0 m ρ c) := (p1_v64 _).trans (agg_congr (W1_of m ρ c main_arg11 (by decide)) (W1_of m ρ c main_arg10 (by decide)) (W1_of m ρ c main_arg12 (by decide)) (W1_of m ρ c main_arg2 (by decide)))
theorem W2_v77 : W2 m ρ c main_v77 = ie1 (W0 m ρ c) := (p1_v77 _).trans (agg_congr (W1_of m ρ c main_arg14 (by decide)) (W1_of m ρ c main_arg13 (by decide)) (W1_of m ρ c main_arg15 (by decide)) (W1_of m ρ c main_arg4 (by decide)))
theorem W2_v90 : W2 m ρ c main_v90 = ie2 (W0 m ρ c) := (p1_v90 _).trans (agg_congr (W1_of m ρ c main_arg17 (by decide)) (W1_of m ρ c main_arg16 (by decide)) (W1_of m ρ c main_arg18 (by decide)) (W1_of m ρ c main_arg6 (by decide)))
theorem W2_v91 : W2 m ρ c main_v91 = broadcastInDim S2000000x1 ![0] bcast_S2000000_S2000000x1_0 (W0 m ρ c main_arg21) := (p1_v91 _).trans (congrArg _ (W1_of m ρ c main_arg21 (by decide)))
theorem W2_v96 : W2 m ρ c main_v96 = wrapIdx 150000#32 (W0 m ρ c main_arg19) := (p1_v96 _).trans (congrArg _ (W1_of m ρ c main_arg19 (by decide)))

theorem W3_main_v108 : W3 m ρ c (Proc.devRef .tc main_v108) = stackU (W0 m ρ c) :=
  (p2_v108 _).trans (by rw [W2_v12 m ρ c, W2_v25 m ρ c, W2_v38 m ρ c, W2_v51 m ρ c]; rfl)
theorem W3_main_v113 : W3 m ρ c (Proc.devRef .tc main_v113) = stackI (W0 m ρ c) :=
  (p2_v113 _).trans (by rw [W2_v64 m ρ c, W2_v77 m ρ c, W2_v90 m ρ c, W2_v91 m ρ c, W2_v96 m ρ c, ((W2_of m ρ c main_arg20 (by decide)).trans (W1_of m ρ c main_arg20 (by decide))), ((W2_of m ρ c main_arg0 (by decide)).trans (W1_of m ρ c main_arg0 (by decide)))]; rfl)
theorem W3_main_v12 : W3 m ρ c (Proc.devRef .tc main_v12) = ue0 (W0 m ρ c) := (W3_of m ρ c main_v12 (by decide)).trans (W2_v12 m ρ c)
theorem W3_main_v25 : W3 m ρ c (Proc.devRef .tc main_v25) = ue1 (W0 m ρ c) := (W3_of m ρ c main_v25 (by decide)).trans (W2_v25 m ρ c)
theorem W3_main_v38 : W3 m ρ c (Proc.devRef .tc main_v38) = ue2 (W0 m ρ c) := (W3_of m ρ c main_v38 (by decide)).trans (W2_v38 m ρ c)
theorem W3_main_v64 : W3 m ρ c (Proc.devRef .tc main_v64) = ie0 (W0 m ρ c) := (W3_of m ρ c main_v64 (by decide)).trans (W2_v64 m ρ c)
theorem W3_main_v77 : W3 m ρ c (Proc.devRef .tc main_v77) = ie1 (W0 m ρ c) := (W3_of m ρ c main_v77 (by decide)).trans (W2_v77 m ρ c)
theorem W3_main_v90 : W3 m ρ c (Proc.devRef .tc main_v90) = ie2 (W0 m ρ c) := (W3_of m ρ c main_v90 (by decide)).trans (W2_v90 m ρ c)

end

/-- One over the larger of the root and the bound, laid out with a unit middle axis. -/
def invNorm (s : (⟨S4x64, .f32⟩ : BufTy).Contents (Elt F)) : (⟨S4x1x64, .f32⟩ : BufTy).Contents (Elt F) :=
  broadcastInDim S4x1x64 ![0, 2] bcast_S4x64_S4x1x64_0_2 (Host.divf (broadcastInDim S4x64 ![] bcast_S_S4x64 (constant S_ .f32 0x3F800000#32)) (maximumf (Host.sqrt s) (broadcastInDim S4x64 ![] bcast_S_S4x64 (constant S_ .f32 0x2B8CBCCC#32))))

theorem ops1_v121 (V : Valuation τ sig (Elt F)) : after main_part2_ops1 V main_v121 = invNorm (V main_v114_1) := by
  simp only [main_part2_ops1]; after_results_simp <;> rfl
theorem ops1_v127 (V : Valuation τ sig (Elt F)) : after main_part2_ops1 V main_v127 = invNorm (V main_v115_1) := by
  simp only [main_part2_ops1]; after_results_simp <;> rfl

theorem invNorm_apply (s : S4x64.Idx → Ideal .f32) (i : S4x1x64.Idx) :
    invNorm (F := Ideal) s i = Ideal.div Cert.Spec.one (max (Ideal.sqrt (s (ix2 (i 0) (i 2)))) Cert.Spec.eps) := by
  refine (broadcastInDim_apply ![0, 2] bcast_S4x64_S4x1x64_0_2 _ i (ix2 (i 0) (i 2) : S4x64.Idx) fun a => by match a with | ⟨0, _⟩ => rfl | ⟨1, _⟩ => rfl).trans ?_
  rw [hostDivf_apply, maximumf_apply, broadcastInDim_scalar_apply, broadcastInDim_scalar_apply, constant_apply, constant_apply]
  rfl

theorem invnorm_u (Wp : Valuation τ sig (Elt Ideal)) :
    (after main_part2_ops1 Wp (Proc.devRef .tc main_v121) : (⟨3, ![4, 1, 64]⟩ : Shape).Idx → Ideal .f32)
      = fun i => Ideal.div Cert.Spec.one (max (Ideal.sqrt ((Wp (Proc.devRef .tc main_v114_1) : (⟨2, ![4, 64]⟩ : Shape).Idx → Ideal .f32) (ix2 (i 0) (i 2)))) Cert.Spec.eps) :=
  (ops1_v121 Wp).trans (funext (invNorm_apply _))
theorem invnorm_i (Wp : Valuation τ sig (Elt Ideal)) :
    (after main_part2_ops1 Wp (Proc.devRef .tc main_v127) : (⟨3, ![4, 1, 64]⟩ : Shape).Idx → Ideal .f32)
      = fun i => Ideal.div Cert.Spec.one (max (Ideal.sqrt ((Wp (Proc.devRef .tc main_v115_1) : (⟨2, ![4, 64]⟩ : Shape).Idx → Ideal .f32) (ix2 (i 0) (i 2)))) Cert.Spec.eps) :=
  (ops1_v127 Wp).trans (funext (invNorm_apply _))

end Cert.KernelIdeal.Hand

end
-- ==== Proof.Cross.lean ====
import proofs.«172980_j39402029973982_1_alg».proof.Proof.KI.HostVal
import proofs.«172980_j39402029973982_1_alg».proof.Proof.Gen.ReferenceIdeal.Run

noncomputable section

namespace Cert.Cross

open Idealize.ShloMosaic Idealize.ShloMosaic.TcCoe Idealize.SL.Sem Idealize.ShloMosaic.StableHlo
open Cert.KernelIdeal.Hand (aggU aggI agg_congr stackFnU stackFnI)

section Reference
open Cert.ReferenceIdeal Cert.ReferenceIdeal.Gen
variable {F : FTy → Type} [FloatOps F] (V : Valuation τ sig (Elt F))

def refAgg12 : (main_v12 : DevRef τ sig).ty.Contents (Elt F) := aggU (V main_arg10) (V main_arg11) (V main_arg12) (V main_arg3)
def refAgg25 : (main_v25 : DevRef τ sig).ty.Contents (Elt F) := aggU (V main_arg13) (V main_arg14) (V main_arg15) (V main_arg5)
def refAgg38 : (main_v38 : DevRef τ sig).ty.Contents (Elt F) := aggU (V main_arg16) (V main_arg17) (V main_arg18) (V main_arg7)
def refAgg51 : (main_v51 : DevRef τ sig).ty.Contents (Elt F) := aggU (V main_arg19) (V main_arg20) (V main_arg21) (V main_arg1)
def refAgg64 : (main_v64 : DevRef τ sig).ty.Contents (Elt F) := aggI (V main_arg11) (V main_arg10) (V main_arg12) (V main_arg2)
def refAgg77 : (main_v77 : DevRef τ sig).ty.Contents (Elt F) := aggI (V main_arg14) (V main_arg13) (V main_arg15) (V main_arg4)
def refAgg90 : (main_v90 : DevRef τ sig).ty.Contents (Elt F) := aggI (V main_arg17) (V main_arg16) (V main_arg18) (V main_arg6)
def refAgg103 : (main_v103 : DevRef τ sig).ty.Contents (Elt F) := aggI (V main_arg20) (V main_arg19) (V main_arg21) (V main_arg0)

end Reference

/-- An argument array in each program's launch memory. -/
abbrev atK (m : (ℓ : Loc Cert.KernelIdeal.nD Cert.KernelIdeal.τ Cert.KernelIdeal.sig) → Buf (Elt Ideal) ℓ) (c : Dev Cert.KernelIdeal.nD) (a : Ref Cert.KernelIdeal.sig .tc) :=
  m ((c.tc : Thread Cert.KernelIdeal.nD Cert.KernelIdeal.τ).loc a)
abbrev atR (m' : (ℓ : Loc Cert.ReferenceIdeal.nD Cert.ReferenceIdeal.τ Cert.ReferenceIdeal.sig) → Buf (Elt Ideal) ℓ) (c : Dev Cert.KernelIdeal.nD) (a : Ref Cert.ReferenceIdeal.sig .tc) :=
  m' ((c.tc : Thread Cert.ReferenceIdeal.nD Cert.ReferenceIdeal.τ).loc a)

/-- The two launch memories hold the same 22 argument arrays. -/
abbrev Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
    atR m' c Cert.ReferenceIdeal.main_arg0 = atK m c Cert.KernelIdeal.main_arg0
    ∧ atR m' c Cert.ReferenceIdeal.main_arg1 = atK m c Cert.KernelIdeal.main_arg1
    ∧ atR m' c Cert.ReferenceIdeal.main_arg2 = atK m c Cert.KernelIdeal.main_arg2
    ∧ atR m' c Cert.ReferenceIdeal.main_arg3 = atK m c Cert.KernelIdeal.main_arg3
    ∧ atR m' c Cert.ReferenceIdeal.main_arg4 = atK m c Cert.KernelIdeal.main_arg4
    ∧ atR m' c Cert.ReferenceIdeal.main_arg5 = atK m c Cert.KernelIdeal.main_arg5
    ∧ atR m' c Cert.ReferenceIdeal.main_arg6 = atK m c Cert.KernelIdeal.main_arg6
    ∧ atR m' c Cert.ReferenceIdeal.main_arg7 = atK m c Cert.KernelIdeal.main_arg7
    ∧ atR m' c Cert.ReferenceIdeal.main_arg8 = atK m c Cert.KernelIdeal.main_arg8
    ∧ atR m' c Cert.ReferenceIdeal.main_arg9 = atK m c Cert.KernelIdeal.main_arg9
    ∧ atR m' c Cert.ReferenceIdeal.main_arg10 = atK m c Cert.KernelIdeal.main_arg10
    ∧ atR m' c Cert.ReferenceIdeal.main_arg11 = atK m c Cert.KernelIdeal.main_arg11
    ∧ atR m' c Cert.ReferenceIdeal.main_arg12 = atK m c Cert.KernelIdeal.main_arg12
    ∧ atR m' c Cert.ReferenceIdeal.main_arg13 = atK m c Cert.KernelIdeal.main_arg13
    ∧ atR m' c Cert.ReferenceIdeal.main_arg14 = atK m c Cert.KernelIdeal.main_arg14
    ∧ atR m' c Cert.ReferenceIdeal.main_arg15 = atK m c Cert.KernelIdeal.main_arg15
    ∧ atR m' c Cert.ReferenceIdeal.main_arg16 = atK m c Cert.KernelIdeal.main_arg16
    ∧ atR m' c Cert.ReferenceIdeal.main_arg17 = atK m c Cert.KernelIdeal.main_arg17
    ∧ atR m' c Cert.ReferenceIdeal.main_arg18 = atK m c Cert.KernelIdeal.main_arg18
    ∧ atR m' c Cert.ReferenceIdeal.main_arg19 = atK m c Cert.KernelIdeal.main_arg19
    ∧ atR m' c Cert.ReferenceIdeal.main_arg20 = atK m c Cert.KernelIdeal.main_arg20
    ∧ atR m' c Cert.ReferenceIdeal.main_arg21 = atK m c Cert.KernelIdeal.main_arg21

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (hagree : Agree m m') (c : Dev Cert.KernelIdeal.nD)
include hagree

theorem ue0_eq : (Cert.KernelIdeal.Hand.ue0 (Cert.KernelIdeal.Hand.W0 m ρ c) : (⟨2, ![150000, 64]⟩ : Shape).Idx → Ideal .f32) = refAgg12 (launchContents m' c) :=
  agg_congr (hagree c).2.2.2.2.2.2.2.2.2.2.1.symm (hagree c).2.2.2.2.2.2.2.2.2.2.2.1.symm (hagree c).2.2.2.2.2.2.2.2.2.2.2.2.1.symm (hagree c).2.2.2.1.symm
theorem ue1_eq : (Cert.KernelIdeal.Hand.ue1 (Cert.KernelIdeal.Hand.W0 m ρ c) : (⟨2, ![150000, 64]⟩ : Shape).Idx → Ideal .f32) = refAgg25 (launchContents m' c) :=
  agg_congr (hagree c).2.2.2.2.2.2.2.2.2.2.2.2.2.1.symm (hagree c).2.2.2.2.2.2.2.2.2.2.2.2.2.2.1.symm (hagree c).2.2.2.2.2.2.2.2.2.2.2.2.2.2.2.1.symm (hagree c).2.2.2.2.2.1.symm
theorem ue2_eq : (Cert.KernelIdeal.Hand.ue2 (Cert.KernelIdeal.Hand.W0 m ρ c) : (⟨2, ![150000, 64]⟩ : Shape).Idx → Ideal .f32) = refAgg38 (launchContents m' c) :=
  agg_congr (hagree c).2.2.2.2.2.2.2.2.2.2.2.2.2.2.2.2.1.symm (hagree c).2.2.2.2.2.2.2.2.2.2.2.2.2.2.2.2.2.1.symm (hagree c).2.2.2.2.2.2.2.2.2.2.2.2.2.2.2.2.2.2.1.symm (hagree c).2.2.2.2.2.2.2.1.symm
theorem ue3_eq : (Cert.KernelIdeal.Hand.ue3 (Cert.KernelIdeal.Hand.W0 m ρ c) : (⟨2, ![150000, 64]⟩ : Shape).Idx → Ideal .f32) = refAgg51 (launchContents m' c) :=
  agg_congr (hagree c).2.2.2.2.2.2.2.2.2.2.2.2.2.2.2.2.2.2.2.1.symm (hagree c).2.2.2.2.2.2.2.2.2.2.2.2.2.2.2.2.2.2.2.2.1.symm (hagree c).2.2.2.2.2.2.2.2.2.2.2.2.2.2.2.2.2.2.2.2.2.symm (hagree c).2.1.symm
theorem ie0_eq : (Cert.KernelIdeal.Hand.ie0 (Cert.KernelIdeal.Hand.W0 m ρ c) : (⟨2, ![80000, 64]⟩ : Shape).Idx → Ideal .f32) = refAgg64 (launchContents m' c) :=
  agg_congr (hagree c).2.2.2.2.2.2.2.2.2.2.2.1.symm (hagree c).2.2.2.2.2.2.2.2.2.2.1.symm (hagree c).2.2.2.2.2.2.2.2.2.2.2.2.1.symm (hagree c).2.2.1.symm
theorem ie1_eq : (Cert.KernelIdeal.Hand.ie1 (Cert.KernelIdeal.Hand.W0 m ρ c) : (⟨2, ![80000, 64]⟩ : Shape).Idx → Ideal .f32) = refAgg77 (launchContents m' c) :=
  agg_congr (hagree c).2.2.2.2.2.2.2.2.2.2.2.2.2.2.1.symm (hagree c).2.2.2.2.2.2.2.2.2.2.2.2.2.1.symm (hagree c).2.2.2.2.2.2.2.2.2.2.2.2.2.2.2.1.symm (hagree c).2.2.2.2.1.symm
theorem ie2_eq : (Cert.KernelIdeal.Hand.ie2 (Cert.KernelIdeal.Hand.W0 m ρ c) : (⟨2, ![80000, 64]⟩ : Shape).Idx → Ideal .f32) = refAgg90 (launchContents m' c) :=
  agg_congr (hagree c).2.2.2.2.2.2.2.2.2.2.2.2.2.2.2.2.2.1.symm (hagree c).2.2.2.2.2.2.2.2.2.2.2.2.2.2.2.2.1.symm (hagree c).2.2.2.2.2.2.2.2.2.2.2.2.2.2.2.2.2.2.1.symm (hagree c).2.2.2.2.2.2.1.symm
theorem ie3_eq : (Cert.KernelIdeal.Hand.ie3 (Cert.KernelIdeal.Hand.W0 m ρ c) : (⟨2, ![80000, 64]⟩ : Shape).Idx → Ideal .f32) = refAgg103 (launchContents m' c) :=
  agg_congr (hagree c).2.2.2.2.2.2.2.2.2.2.2.2.2.2.2.2.2.2.2.2.1.symm (hagree c).2.2.2.2.2.2.2.2.2.2.2.2.2.2.2.2.2.2.2.1.symm (hagree c).2.2.2.2.2.2.2.2.2.2.2.2.2.2.2.2.2.2.2.2.2.symm (hagree c).1.symm

theorem stackU_eq : (Cert.KernelIdeal.Hand.stackU (Cert.KernelIdeal.Hand.W0 m ρ c) : (⟨3, ![4, 150000, 64]⟩ : Shape).Idx → Ideal .f32) = Cert.ReferenceIdeal.Value.res_main_v108 (launchContents m' c) := by
  rw [Cert.KernelIdeal.Hand.stackU, ue0_eq m ρ m' hagree c, ue1_eq m ρ m' hagree c, ue2_eq m ρ m' hagree c, ue3_eq m ρ m' hagree c]; rfl
theorem stackI_eq : (Cert.KernelIdeal.Hand.stackI (Cert.KernelIdeal.Hand.W0 m ρ c) : (⟨3, ![4, 80000, 64]⟩ : Shape).Idx → Ideal .f32) = Cert.ReferenceIdeal.Value.res_main_v113 (launchContents m' c) := by
  rw [Cert.KernelIdeal.Hand.stackI, ie0_eq m ρ m' hagree c, ie1_eq m ρ m' hagree c, ie2_eq m ρ m' hagree c, ie3_eq m ρ m' hagree c]; rfl

end

end Cert.Cross

end
-- ==== Proof.Alg.lean ====
import proofs.«172980_j39402029973982_1_alg».proof.Defs
import proofs.«172980_j39402029973982_1_alg».proof.Proof.Gen.Pre_finite_inputs
import proofs.«172980_j39402029973982_1_alg».proof.Proof.KI.Run
import proofs.«172980_j39402029973982_1_alg».proof.Proof.KI.Val2
import proofs.«172980_j39402029973982_1_alg».proof.Proof.KI.Val3
import proofs.«172980_j39402029973982_1_alg».proof.Proof.SpecLaws
import proofs.«172980_j39402029973982_1_alg».proof.Proof.RefVal
import proofs.«172980_j39402029973982_1_alg».proof.Proof.KI.R0Val
import proofs.«172980_j39402029973982_1_alg».proof.Proof.KI.R1Val
import proofs.«172980_j39402029973982_1_alg».proof.Proof.KI.Val0
import proofs.«172980_j39402029973982_1_alg».proof.Proof.KI.Val1
import proofs.«172980_j39402029973982_1_alg».proof.Proof.Cross

noncomputable section

open Idealize.ShloMosaic Idealize.ShloMosaic.TcCoe Idealize.SL.Sem Idealize.ShloMosaic.ValueIdx
open Cert.KernelIdeal Cert.KernelIdeal.Hand

namespace Cert.Proof.Alg

abbrev T3 (n : Nat) := (⟨3, ![4, n, 64]⟩ : Shape).Idx → Ideal .f32
abbrev T2 (a b : Nat) := (⟨2, ![a, b]⟩ : Shape).Idx → Ideal .f32

-- Times the reciprocal of the bounded norm is over the bounded norm: the bound keeps the norm off zero.
theorem scaled_eq_normed {n : Nat} {X X' : T3 n} {N : (⟨3, ![4, 1, 64]⟩ : Shape).Idx → Ideal .f32}
    (hX : X = X') (hN : N = fun i => Ideal.div Spec.one (max (Ideal.sqrt (Spec.sumsq X' (ix2 (i 0) (i 2)))) Spec.eps)) :
    (fun i => X i * N (ix3 (i 0) 0 (i 2))) = Spec.normed X' := by
  subst hX; subst hN; funext i
  unfold Spec.normed Spec.bnorm
  exact Spec.mul_recip (Spec.bnorm_ne_zero X (i 0) (i 2)) (X i)

theorem invnorm_u_of (Wp : Valuation τ sig (Elt Ideal)) {S : T2 4 64} (hS : Wp (Proc.devRef .tc main_v114_1) = S) :
    (StableHlo.after Gen.main_part2_ops1 Wp (Proc.devRef .tc main_v121) : (⟨3, ![4, 1, 64]⟩ : Shape).Idx → Ideal .f32)
      = fun i => Ideal.div Spec.one (max (Ideal.sqrt (S (ix2 (i 0) (i 2)))) Spec.eps) := by
  subst hS; exact invnorm_u Wp
theorem invnorm_i_of (Wp : Valuation τ sig (Elt Ideal)) {S : T2 4 64} (hS : Wp (Proc.devRef .tc main_v115_1) = S) :
    (StableHlo.after Gen.main_part2_ops1 Wp (Proc.devRef .tc main_v127) : (⟨3, ![4, 1, 64]⟩ : Shape).Idx → Ideal .f32)
      = fun i => Ideal.div Spec.one (max (Ideal.sqrt (S (ix2 (i 0) (i 2)))) Spec.eps) := by
  subst hS; exact invnorm_i Wp

section
variable {m : (ℓ : Loc nD τ sig) → Buf (Elt Ideal) ℓ} {ρ : Dev nD → PrngReg} (c : Dev nD) {XU : T3 150000} {XI : T3 80000} {WU WI : T2 64 64}
  (hXU : (V3 m ρ c main_v108 : T3 150000) = XU) (hXI : (V3 m ρ c main_v113 : T3 80000) = XI)
  (hWU : (V3 m ρ c main_arg8 : T2 64 64) = WU) (hWI : (V4 m ρ c main_arg9 : T2 64 64) = WI)
include hXU hXI

theorem stackI_V4 : (V4 m ρ c main_v113 : T3 80000) = XI := (W4_of_ne m ρ c main_v113 (by decide)).trans hXI

-- What regions 0 and 1 accumulate is the sum of squares over all rows of the stack.
theorem sumsqU : (W5 m ρ c (Proc.devRef .tc main_v114_1) : T2 4 64) = Spec.sumsq (n := 150000) XU :=
  (W5_main_v114_1 m ρ c).trans ((arr3_0_eq (V3 m ρ) c (after0_3_zero (V3 m ρ) c) (after0_3_succ (V3 m ρ) c)).trans (congrArg (Spec.sumsq (n := 150000)) hXU))
theorem sumsqI : (W5 m ρ c (Proc.devRef .tc main_v115_1) : T2 4 64) = Spec.sumsq (n := 80000) XI :=
  (W5_arr m ρ c 3).trans ((arr3_1_eq (V4 m ρ) c (after1_3_zero (V4 m ρ) c) (after1_3_succ (V4 m ρ) c)).trans (congrArg (Spec.sumsq (n := 80000)) (stackI_V4 c hXU hXI)))

-- The four kernel results are the specification's functions of the stacks and the weights.
include hWU in
theorem res0 : (W8 m ρ c (Proc.devRef .tc main_v114_0) : T2 150000 64) = Spec.proj (n := 150000) XU WU :=
  (W8_main_v114_0 m ρ c).trans ((arr2_0_eq (V3 m ρ) c (after0_2_pay (V3 m ρ) c)).trans (congrArg₂ (Spec.proj (n := 150000)) hXU hWU))
include hWI in
theorem res1 : (W8 m ρ c (Proc.devRef .tc main_v115_0) : T2 80000 64) = Spec.proj (n := 80000) XI WI :=
  (W8_main_v115_0 m ρ c).trans ((arr2_1_eq (V4 m ρ) c (after1_2_pay (V4 m ρ) c)).trans (congrArg₂ (Spec.proj (n := 80000)) (stackI_V4 c hXU hXI) hWI))
theorem res2 : (W8 m ρ c (Proc.devRef .tc main_v128) : T3 150000) = Spec.normed (n := 150000) XU :=
  (W8_main_v128 m ρ c).trans ((arr2_eq (V6 m ρ) c).trans (scaled_eq_normed (X := xarr2 (V6 m ρ) c) (N := narr2 (V6 m ρ) c)
    ((V6_main_v108 m ρ c).trans hXU) (invnorm_u_of (W5 m ρ c) (sumsqU c hXU hXI))))
theorem res3 : (W8 m ρ c (Proc.devRef .tc main_v129) : T3 80000) = Spec.normed (n := 80000) XI :=
  (W8_arr m ρ c 2).trans ((arr3_eq (V7 m ρ) c).trans (scaled_eq_normed (X := xarr3 (V7 m ρ) c) (N := narr3 (V7 m ρ) c)
    ((V7_main_v113 m ρ c).trans hXI) ((W7_of_ne m ρ c main_v127 (by decide)).trans (invnorm_i_of (W5 m ρ c) (sumsqI c hXU hXI)))))

end

-- An aggregation that is a result is written before region 0 and never again.
theorem W8_eq_W3 {m : (ℓ : Loc nD τ sig) → Buf (Elt Ideal) ℓ} {ρ : Dev nD → PrngReg} (c : Dev nD) (r : Ref sig .tc)
    (h : (r ∉ ops3_W ∧ (∀ w, Pipeline.arrRef spec2 w ≠ r) ∧ ∀ w, Pipeline.arrRef spec3 w ≠ r) ∧ (∀ w, Pipeline.arrRef spec0 w ≠ r) ∧ ∀ w, Pipeline.arrRef spec1 w ≠ r) :
    W8 m ρ c (Proc.devRef .tc r) = W3 m ρ c (Proc.devRef .tc r) :=
  (W8_eq_W5 m ρ c r h.1).trans (W5_eq_W3 m ρ c r h.2)

set_option backward.isDefEq.respectTransparency.types false in
theorem algebraic : Cert.algebraic_KernelIdeal_ReferenceIdeal (hKernelIdeal := Gen.facts) (hReferenceIdeal := Cert.ReferenceIdeal.Gen.facts)
    (hPre_finite_inputs := Cert.Pre_finite_inputs.Gen.facts) := by
  intro m ρ m' ρ' _ hagree
  have hXU := fun c => (W3_main_v108 m ρ c).trans (Cross.stackU_eq m ρ m' hagree c)
  have hXI := fun c => (W3_main_v113 m ρ c).trans (Cross.stackI_eq m ρ m' hagree c)
  have hWU := fun c => (W3_eq_W0 m ρ c main_arg8 (by decide)).trans (hagree c).2.2.2.2.2.2.2.2.1.symm
  have hWI := fun c => ((W4_of_ne m ρ c main_arg9 (by decide)).trans (W3_eq_W0 m ρ c main_arg9 (by decide))).trans (hagree c).2.2.2.2.2.2.2.2.2.1.symm
  refine ⟨_, _, _, _, _, _, _, _, _, _, (θ_run defs _ _).mono (fun r h c => ⟨
      (h c _ (mem_uc main_v114_0 (by decide))).trans (res0 c (hXU c) (hXI c) (hWU c)),
      (h c _ (mem_uc main_v115_0 (by decide))).trans (res1 c (hXU c) (hXI c) (hWI c)),
      (h c _ (mem_uc main_v128 (by decide))).trans (res2 c (hXU c) (hXI c)),
      (h c _ (mem_uc main_v129 (by decide))).trans (res3 c (hXU c) (hXI c)),
      (h c _ (mem_uc main_v12 (by decide))).trans ((W8_eq_W3 c main_v12 (by decide)).trans ((W3_main_v12 m ρ c).trans (Cross.ue0_eq m ρ m' hagree c))),
      (h c _ (mem_uc main_v64 (by decide))).trans ((W8_eq_W3 c main_v64 (by decide)).trans ((W3_main_v64 m ρ c).trans (Cross.ie0_eq m ρ m' hagree c))),
      (h c _ (mem_uc main_v25 (by decide))).trans ((W8_eq_W3 c main_v25 (by decide)).trans ((W3_main_v25 m ρ c).trans (Cross.ue1_eq m ρ m' hagree c))),
      (h c _ (mem_uc main_v77 (by decide))).trans ((W8_eq_W3 c main_v77 (by decide)).trans ((W3_main_v77 m ρ c).trans (Cross.ie1_eq m ρ m' hagree c))),
      (h c _ (mem_uc main_v38 (by decide))).trans ((W8_eq_W3 c main_v38 (by decide)).trans ((W3_main_v38 m ρ c).trans (Cross.ue2_eq m ρ m' hagree c))),
      (h c _ (mem_uc main_v90 (by decide))).trans ((W8_eq_W3 c main_v90 (by decide)).trans ((W3_main_v90 m ρ c).trans (Cross.ie2_eq m ρ m' hagree c))),
      ?_⟩) (run_all (F := Ideal) m ρ), Cert.ReferenceIdeal.RefValue.run_spec m' ρ'⟩
  and_intros <;> first
    | exact (h c _ (mem_uc _ (by decide))).trans (W8_kept m ρ c _ (by decide))
    | exact (h c _ (mem_uc _ (by decide))).trans (W8_main_arg8 m ρ c)
    | exact (h c _ (mem_uc _ (by decide))).trans (W8_main_arg9 m ρ c)

end Cert.Proof.Alg

end
-- ==== Proof.lean ====
import proofs.«172980_j39402029973982_1_alg».proof.Defs
import proofs.«172980_j39402029973982_1_alg».proof.Proof.Gen.Kernel
import proofs.«172980_j39402029973982_1_alg».proof.Proof.Gen.KernelIdeal
import proofs.«172980_j39402029973982_1_alg».proof.Proof.Gen.ReferenceIdeal
import proofs.«172980_j39402029973982_1_alg».proof.Proof.Gen.Pre_finite_inputs
import proofs.«172980_j39402029973982_1_alg».proof.Proof.Gen.ReferenceIdeal.Run
import proofs.«172980_j39402029973982_1_alg».proof.Proof.K.Frame
import proofs.«172980_j39402029973982_1_alg».proof.Proof.KI.Frame
import proofs.«172980_j39402029973982_1_alg».proof.Proof.Alg

noncomputable section

namespace Cert.Proof

open Idealize.ShloMosaic Idealize.SL.Sem

-- The reference is host operations only: its frame is its run with the ten results dropped.
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2.2.2.2)
    (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  Cert.Kernel.Hand.frame, Cert.KernelIdeal.Hand.frame, frame_ri, trivial, Cert.Proof.Alg.algebraic⟩

end Cert.Proof

end
